-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S512x256 .f32) (main_arg1 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Pre_finite_inputs_ReferenceIdeal.lean ====
abbrev S512x4096 : Shape := ⟨2, ![512, 4096]⟩
abbrev S4096x512 : Shape := ⟨2, ![4096, 512]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S512x4096 .f32) (main_arg1 : FVec F S4096x512 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S512x256 : Shape := ⟨2, ![512, 256]⟩
abbrev S256x512 : Shape := ⟨2, ![256, 512]⟩
abbrev S512x512 : Shape := ⟨2, ![512, 512]⟩
abbrev S16x32x512 : Shape := ⟨3, ![16, 32, 512]⟩
abbrev S32x512 : Shape := ⟨2, ![32, 512]⟩
abbrev S16 : Shape := ⟨1, ![16]⟩
abbrev S_ : Shape := ⟨0, ![]⟩
abbrev S1 : Shape := ⟨1, ![1]⟩
abbrev S1x32x512 : Shape := ⟨3, ![1, 32, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .bf16⟩
  | .local _ .vmem, ⟨0, _⟩ => ⟨S512x256, .f32⟩
  | .local _ .vmem, ⟨1, _⟩ => ⟨S256x512, .f32⟩
  | .local _ .vmem, ⟨2, _⟩ => ⟨S512x512, .bf16⟩
  | .local _ .vmem, ⟨3, _⟩ => ⟨S512x512, .bf16⟩
  | .local _ .vmem, ⟨4, _⟩ => ⟨S16x32x512, .bf16⟩
  | .local _ .vmem, ⟨5, _⟩ => ⟨S32x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_151 : BitVec 32 := 0#32
  let c0_i32_152 : BitVec 32 := 0#32
  ![v2.toNat, 0, 0]
def k0_off3 (d0 : Dev nD) (c1_i32_141 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c32_i32 : BitVec 32 := 32#32
  let v219 : BitVec 32 := Scalar.muli v218 c32_i32
  let c0_i32_153 : BitVec 32 := 0#32
  ![v219.toNat, 0]
def k0_dev16 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v208 : BitVec 32 := Scalar.addi v2 c1_i32_141
  let c16_i32_142 : BitVec 32 := 16#32
  let c0_i32_143 : BitVec 32 := 0#32
  let v209 : BitVec 1 := Scalar.cmpi .eq c16_i32_142 c0_i32_143
  let c1_i32_144 : BitVec 32 := 1#32
  let v210 : BitVec 32 := Scalar.select v209 c1_i32_144 c16_i32_142
  let v211 : BitVec 32 := Scalar.remsi v208 v210
  let c0_i32_146 : BitVec 32 := 0#32
  let v213 : BitVec 1 := Scalar.cmpi .slt v211 c0_i32_146
  let c0_i32_147 : BitVec 32 := 0#32
  let v214 : BitVec 1 := Scalar.cmpi .slt v210 c0_i32_147
  let v215 : BitVec 1 := Scalar.xori v213 v214
  let c0_i32_145 : BitVec 32 := 0#32
  let v212 : BitVec 1 := Scalar.cmpi .ne v211 c0_i32_145
  let v216 : BitVec 1 := Scalar.andi v215 v212
  let v217 : BitVec 32 := Scalar.addi v211 v210
  let v218 : BitVec 32 := Scalar.select v216 v217 v211
  let c1_i32_149 : BitVec 32 := 1#32
  let v220 : BitVec 32 := Scalar.muli v218 c1_i32_149
  let v221 : BitVec 32 := Scalar.addi c0_i32_150 v220
  v221.toNat
def k0_dev17 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_154 : BitVec 32 := 2#32
  let v229 : BitVec 32 := Scalar.addi v2 c2_i32_154
  let c16_i32_155 : BitVec 32 := 16#32
  let c0_i32_156 : BitVec 32 := 0#32
  let v230 : BitVec 1 := Scalar.cmpi .eq c16_i32_155 c0_i32_156
  let c1_i32_157 : BitVec 32 := 1#32
  let v231 : BitVec 32 := Scalar.select v230 c1_i32_157 c16_i32_155
  let v232 : BitVec 32 := Scalar.remsi v229 v231
  let c0_i32_159 : BitVec 32 := 0#32
  let v234 : BitVec 1 := Scalar.cmpi .slt v232 c0_i32_159
  let c0_i32_160 : BitVec 32 := 0#32
  let v235 : BitVec 1 := Scalar.cmpi .slt v231 c0_i32_160
  let v236 : BitVec 1 := Scalar.xori v234 v235
  let c0_i32_158 : BitVec 32 := 0#32
  let v233 : BitVec 1 := Scalar.cmpi .ne v232 c0_i32_158
  let v237 : BitVec 1 := Scalar.andi v236 v233
  let v238 : BitVec 32 := Scalar.addi v232 v231
  let v239 : BitVec 32 := Scalar.select v237 v238 v232
  let c1_i32_163 : BitVec 32 := 1#32
  let v241 : BitVec 32 := Scalar.muli v239 c1_i32_163
  let v242 : BitVec 32 := Scalar.addi c0_i32_164 v241
  v242.toNat
def k0_dev18 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_168 : BitVec 32 := 3#32
  let v250 : BitVec 32 := Scalar.addi v2 c3_i32_168
  let c16_i32_169 : BitVec 32 := 16#32
  let c0_i32_170 : BitVec 32 := 0#32
  let v251 : BitVec 1 := Scalar.cmpi .eq c16_i32_169 c0_i32_170
  let c1_i32_171 : BitVec 32 := 1#32
  let v252 : BitVec 32 := Scalar.select v251 c1_i32_171 c16_i32_169
  let v253 : BitVec 32 := Scalar.remsi v250 v252
  let c0_i32_173 : BitVec 32 := 0#32
  let v255 : BitVec 1 := Scalar.cmpi .slt v253 c0_i32_173
  let c0_i32_174 : BitVec 32 := 0#32
  let v256 : BitVec 1 := Scalar.cmpi .slt v252 c0_i32_174
  let v257 : BitVec 1 := Scalar.xori v255 v256
  let c0_i32_172 : BitVec 32 := 0#32
  let v254 : BitVec 1 := Scalar.cmpi .ne v253 c0_i32_172
  let v258 : BitVec 1 := Scalar.andi v257 v254
  let v259 : BitVec 32 := Scalar.addi v253 v252
  let v260 : BitVec 32 := Scalar.select v258 v259 v253
  let c1_i32_177 : BitVec 32 := 1#32
  let v262 : BitVec 32 := Scalar.muli v260 c1_i32_177
  let v263 : BitVec 32 := Scalar.addi c0_i32_178 v262
  v263.toNat
def k0_dev19 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_182 : BitVec 32 := 4#32
  let v271 : BitVec 32 := Scalar.addi v2 c4_i32_182
  let c16_i32_183 : BitVec 32 := 16#32
  let c0_i32_184 : BitVec 32 := 0#32
  let v272 : BitVec 1 := Scalar.cmpi .eq c16_i32_183 c0_i32_184
  let c1_i32_185 : BitVec 32 := 1#32
  let v273 : BitVec 32 := Scalar.select v272 c1_i32_185 c16_i32_183
  let v274 : BitVec 32 := Scalar.remsi v271 v273
  let c0_i32_187 : BitVec 32 := 0#32
  let v276 : BitVec 1 := Scalar.cmpi .slt v274 c0_i32_187
  let c0_i32_188 : BitVec 32 := 0#32
  let v277 : BitVec 1 := Scalar.cmpi .slt v273 c0_i32_188
  let v278 : BitVec 1 := Scalar.xori v276 v277
  let c0_i32_186 : BitVec 32 := 0#32
  let v275 : BitVec 1 := Scalar.cmpi .ne v274 c0_i32_186
  let v279 : BitVec 1 := Scalar.andi v278 v275
  let v280 : BitVec 32 := Scalar.addi v274 v273
  let v281 : BitVec 32 := Scalar.select v279 v280 v274
  let c1_i32_191 : BitVec 32 := 1#32
  let v283 : BitVec 32 := Scalar.muli v281 c1_i32_191
  let v284 : BitVec 32 := Scalar.addi c0_i32_192 v283
  v284.toNat
def k0_dev20 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_196 : BitVec 32 := 5#32
  let v292 : BitVec 32 := Scalar.addi v2 c5_i32_196
  let c16_i32_197 : BitVec 32 := 16#32
  let c0_i32_198 : BitVec 32 := 0#32
  let v293 : BitVec 1 := Scalar.cmpi .eq c16_i32_197 c0_i32_198
  let c1_i32_199 : BitVec 32 := 1#32
  let v294 : BitVec 32 := Scalar.select v293 c1_i32_199 c16_i32_197
  let v295 : BitVec 32 := Scalar.remsi v292 v294
  let c0_i32_201 : BitVec 32 := 0#32
  let v297 : BitVec 1 := Scalar.cmpi .slt v295 c0_i32_201
  let c0_i32_202 : BitVec 32 := 0#32
  let v298 : BitVec 1 := Scalar.cmpi .slt v294 c0_i32_202
  let v299 : BitVec 1 := Scalar.xori v297 v298
  let c0_i32_200 : BitVec 32 := 0#32
  let v296 : BitVec 1 := Scalar.cmpi .ne v295 c0_i32_200
  let v300 : BitVec 1 := Scalar.andi v299 v296
  let v301 : BitVec 32 := Scalar.addi v295 v294
  let v302 : BitVec 32 := Scalar.select v300 v301 v295
  let c1_i32_205 : BitVec 32 := 1#32
  let v304 : BitVec 32 := Scalar.muli v302 c1_i32_205
  let v305 : BitVec 32 := Scalar.addi c0_i32_206 v304
  v305.toNat
def k0_dev21 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_210 : BitVec 32 := 6#32
  let v313 : BitVec 32 := Scalar.addi v2 c6_i32_210
  let c16_i32_211 : BitVec 32 := 16#32
  let c0_i32_212 : BitVec 32 := 0#32
  let v314 : BitVec 1 := Scalar.cmpi .eq c16_i32_211 c0_i32_212
  let c1_i32_213 : BitVec 32 := 1#32
  let v315 : BitVec 32 := Scalar.select v314 c1_i32_213 c16_i32_211
  let v316 : BitVec 32 := Scalar.remsi v313 v315
  let c0_i32_215 : BitVec 32 := 0#32
  let v318 : BitVec 1 := Scalar.cmpi .slt v316 c0_i32_215
  let c0_i32_216 : BitVec 32 := 0#32
  let v319 : BitVec 1 := Scalar.cmpi .slt v315 c0_i32_216
  let v320 : BitVec 1 := Scalar.xori v318 v319
  let c0_i32_214 : BitVec 32 := 0#32
  let v317 : BitVec 1 := Scalar.cmpi .ne v316 c0_i32_214
  let v321 : BitVec 1 := Scalar.andi v320 v317
  let v322 : BitVec 32 := Scalar.addi v316 v315
  let v323 : BitVec 32 := Scalar.select v321 v322 v316
  let c1_i32_219 : BitVec 32 := 1#32
  let v325 : BitVec 32 := Scalar.muli v323 c1_i32_219
  let v326 : BitVec 32 := Scalar.addi c0_i32_220 v325
  v326.toNat
def k0_dev22 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_224 : BitVec 32 := 7#32
  let v334 : BitVec 32 := Scalar.addi v2 c7_i32_224
  let c16_i32_225 : BitVec 32 := 16#32
  let c0_i32_226 : BitVec 32 := 0#32
  let v335 : BitVec 1 := Scalar.cmpi .eq c16_i32_225 c0_i32_226
  let c1_i32_227 : BitVec 32 := 1#32
  let v336 : BitVec 32 := Scalar.select v335 c1_i32_227 c16_i32_225
  let v337 : BitVec 32 := Scalar.remsi v334 v336
  let c0_i32_229 : BitVec 32 := 0#32
  let v339 : BitVec 1 := Scalar.cmpi .slt v337 c0_i32_229
  let c0_i32_230 : BitVec 32 := 0#32
  let v340 : BitVec 1 := Scalar.cmpi .slt v336 c0_i32_230
  let v341 : BitVec 1 := Scalar.xori v339 v340
  let c0_i32_228 : BitVec 32 := 0#32
  let v338 : BitVec 1 := Scalar.cmpi .ne v337 c0_i32_228
  let v342 : BitVec 1 := Scalar.andi v341 v338
  let v343 : BitVec 32 := Scalar.addi v337 v336
  let v344 : BitVec 32 := Scalar.select v342 v343 v337
  let c1_i32_233 : BitVec 32 := 1#32
  let v346 : BitVec 32 := Scalar.muli v344 c1_i32_233
  let v347 : BitVec 32 := Scalar.addi c0_i32_234 v346
  v347.toNat
def k0_dev23 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_238 : BitVec 32 := 8#32
  let v355 : BitVec 32 := Scalar.addi v2 c8_i32_238
  let c16_i32_239 : BitVec 32 := 16#32
  let c0_i32_240 : BitVec 32 := 0#32
  let v356 : BitVec 1 := Scalar.cmpi .eq c16_i32_239 c0_i32_240
  let c1_i32_241 : BitVec 32 := 1#32
  let v357 : BitVec 32 := Scalar.select v356 c1_i32_241 c16_i32_239
  let v358 : BitVec 32 := Scalar.remsi v355 v357
  let c0_i32_243 : BitVec 32 := 0#32
  let v360 : BitVec 1 := Scalar.cmpi .slt v358 c0_i32_243
  let c0_i32_244 : BitVec 32 := 0#32
  let v361 : BitVec 1 := Scalar.cmpi .slt v357 c0_i32_244
  let v362 : BitVec 1 := Scalar.xori v360 v361
  let c0_i32_242 : BitVec 32 := 0#32
  let v359 : BitVec 1 := Scalar.cmpi .ne v358 c0_i32_242
  let v363 : BitVec 1 := Scalar.andi v362 v359
  let v364 : BitVec 32 := Scalar.addi v358 v357
  let v365 : BitVec 32 := Scalar.select v363 v364 v358
  let c1_i32_247 : BitVec 32 := 1#32
  let v367 : BitVec 32 := Scalar.muli v365 c1_i32_247
  let v368 : BitVec 32 := Scalar.addi c0_i32_248 v367
  v368.toNat
def k0_dev24 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_252 : BitVec 32 := 9#32
  let v376 : BitVec 32 := Scalar.addi v2 c9_i32_252
  let c16_i32_253 : BitVec 32 := 16#32
  let c0_i32_254 : BitVec 32 := 0#32
  let v377 : BitVec 1 := Scalar.cmpi .eq c16_i32_253 c0_i32_254
  let c1_i32_255 : BitVec 32 := 1#32
  let v378 : BitVec 32 := Scalar.select v377 c1_i32_255 c16_i32_253
  let v379 : BitVec 32 := Scalar.remsi v376 v378
  let c0_i32_257 : BitVec 32 := 0#32
  let v381 : BitVec 1 := Scalar.cmpi .slt v379 c0_i32_257
  let c0_i32_258 : BitVec 32 := 0#32
  let v382 : BitVec 1 := Scalar.cmpi .slt v378 c0_i32_258
  let v383 : BitVec 1 := Scalar.xori v381 v382
  let c0_i32_256 : BitVec 32 := 0#32
  let v380 : BitVec 1 := Scalar.cmpi .ne v379 c0_i32_256
  let v384 : BitVec 1 := Scalar.andi v383 v380
  let v385 : BitVec 32 := Scalar.addi v379 v378
  let v386 : BitVec 32 := Scalar.select v384 v385 v379
  let c1_i32_261 : BitVec 32 := 1#32
  let v388 : BitVec 32 := Scalar.muli v386 c1_i32_261
  let v389 : BitVec 32 := Scalar.addi c0_i32_262 v388
  v389.toNat
def k0_dev25 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_266 : BitVec 32 := 10#32
  let v397 : BitVec 32 := Scalar.addi v2 c10_i32_266
  let c16_i32_267 : BitVec 32 := 16#32
  let c0_i32_268 : BitVec 32 := 0#32
  let v398 : BitVec 1 := Scalar.cmpi .eq c16_i32_267 c0_i32_268
  let c1_i32_269 : BitVec 32 := 1#32
  let v399 : BitVec 32 := Scalar.select v398 c1_i32_269 c16_i32_267
  let v400 : BitVec 32 := Scalar.remsi v397 v399
  let c0_i32_271 : BitVec 32 := 0#32
  let v402 : BitVec 1 := Scalar.cmpi .slt v400 c0_i32_271
  let c0_i32_272 : BitVec 32 := 0#32
  let v403 : BitVec 1 := Scalar.cmpi .slt v399 c0_i32_272
  let v404 : BitVec 1 := Scalar.xori v402 v403
  let c0_i32_270 : BitVec 32 := 0#32
  let v401 : BitVec 1 := Scalar.cmpi .ne v400 c0_i32_270
  let v405 : BitVec 1 := Scalar.andi v404 v401
  let v406 : BitVec 32 := Scalar.addi v400 v399
  let v407 : BitVec 32 := Scalar.select v405 v406 v400
  let c1_i32_275 : BitVec 32 := 1#32
  let v409 : BitVec 32 := Scalar.muli v407 c1_i32_275
  let v410 : BitVec 32 := Scalar.addi c0_i32_276 v409
  v410.toNat
def k0_dev26 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_280 : BitVec 32 := 11#32
  let v418 : BitVec 32 := Scalar.addi v2 c11_i32_280
  let c16_i32_281 : BitVec 32 := 16#32
  let c0_i32_282 : BitVec 32 := 0#32
  let v419 : BitVec 1 := Scalar.cmpi .eq c16_i32_281 c0_i32_282
  let c1_i32_283 : BitVec 32 := 1#32
  let v420 : BitVec 32 := Scalar.select v419 c1_i32_283 c16_i32_281
  let v421 : BitVec 32 := Scalar.remsi v418 v420
  let c0_i32_285 : BitVec 32 := 0#32
  let v423 : BitVec 1 := Scalar.cmpi .slt v421 c0_i32_285
  let c0_i32_286 : BitVec 32 := 0#32
  let v424 : BitVec 1 := Scalar.cmpi .slt v420 c0_i32_286
  let v425 : BitVec 1 := Scalar.xori v423 v424
  let c0_i32_284 : BitVec 32 := 0#32
  let v422 : BitVec 1 := Scalar.cmpi .ne v421 c0_i32_284
  let v426 : BitVec 1 := Scalar.andi v425 v422
  let v427 : BitVec 32 := Scalar.addi v421 v420
  let v428 : BitVec 32 := Scalar.select v426 v427 v421
  let c1_i32_289 : BitVec 32 := 1#32
  let v430 : BitVec 32 := Scalar.muli v428 c1_i32_289
  let v431 : BitVec 32 := Scalar.addi c0_i32_290 v430
  v431.toNat
def k0_dev27 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_294 : BitVec 32 := 12#32
  let v439 : BitVec 32 := Scalar.addi v2 c12_i32_294
  let c16_i32_295 : BitVec 32 := 16#32
  let c0_i32_296 : BitVec 32 := 0#32
  let v440 : BitVec 1 := Scalar.cmpi .eq c16_i32_295 c0_i32_296
  let c1_i32_297 : BitVec 32 := 1#32
  let v441 : BitVec 32 := Scalar.select v440 c1_i32_297 c16_i32_295
  let v442 : BitVec 32 := Scalar.remsi v439 v441
  let c0_i32_299 : BitVec 32 := 0#32
  let v444 : BitVec 1 := Scalar.cmpi .slt v442 c0_i32_299
  let c0_i32_300 : BitVec 32 := 0#32
  let v445 : BitVec 1 := Scalar.cmpi .slt v441 c0_i32_300
  let v446 : BitVec 1 := Scalar.xori v444 v445
  let c0_i32_298 : BitVec 32 := 0#32
  let v443 : BitVec 1 := Scalar.cmpi .ne v442 c0_i32_298
  let v447 : BitVec 1 := Scalar.andi v446 v443
  let v448 : BitVec 32 := Scalar.addi v442 v441
  let v449 : BitVec 32 := Scalar.select v447 v448 v442
  let c1_i32_303 : BitVec 32 := 1#32
  let v451 : BitVec 32 := Scalar.muli v449 c1_i32_303
  let v452 : BitVec 32 := Scalar.addi c0_i32_304 v451
  v452.toNat
def k0_dev28 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_308 : BitVec 32 := 13#32
  let v460 : BitVec 32 := Scalar.addi v2 c13_i32_308
  let c16_i32_309 : BitVec 32 := 16#32
  let c0_i32_310 : BitVec 32 := 0#32
  let v461 : BitVec 1 := Scalar.cmpi .eq c16_i32_309 c0_i32_310
  let c1_i32_311 : BitVec 32 := 1#32
  let v462 : BitVec 32 := Scalar.select v461 c1_i32_311 c16_i32_309
  let v463 : BitVec 32 := Scalar.remsi v460 v462
  let c0_i32_313 : BitVec 32 := 0#32
  let v465 : BitVec 1 := Scalar.cmpi .slt v463 c0_i32_313
  let c0_i32_314 : BitVec 32 := 0#32
  let v466 : BitVec 1 := Scalar.cmpi .slt v462 c0_i32_314
  let v467 : BitVec 1 := Scalar.xori v465 v466
  let c0_i32_312 : BitVec 32 := 0#32
  let v464 : BitVec 1 := Scalar.cmpi .ne v463 c0_i32_312
  let v468 : BitVec 1 := Scalar.andi v467 v464
  let v469 : BitVec 32 := Scalar.addi v463 v462
  let v470 : BitVec 32 := Scalar.select v468 v469 v463
  let c1_i32_317 : BitVec 32 := 1#32
  let v472 : BitVec 32 := Scalar.muli v470 c1_i32_317
  let v473 : BitVec 32 := Scalar.addi c0_i32_318 v472
  v473.toNat
def k0_dev29 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_322 : BitVec 32 := 14#32
  let v481 : BitVec 32 := Scalar.addi v2 c14_i32_322
  let c16_i32_323 : BitVec 32 := 16#32
  let c0_i32_324 : BitVec 32 := 0#32
  let v482 : BitVec 1 := Scalar.cmpi .eq c16_i32_323 c0_i32_324
  let c1_i32_325 : BitVec 32 := 1#32
  let v483 : BitVec 32 := Scalar.select v482 c1_i32_325 c16_i32_323
  let v484 : BitVec 32 := Scalar.remsi v481 v483
  let c0_i32_327 : BitVec 32 := 0#32
  let v486 : BitVec 1 := Scalar.cmpi .slt v484 c0_i32_327
  let c0_i32_328 : BitVec 32 := 0#32
  let v487 : BitVec 1 := Scalar.cmpi .slt v483 c0_i32_328
  let v488 : BitVec 1 := Scalar.xori v486 v487
  let c0_i32_326 : BitVec 32 := 0#32
  let v485 : BitVec 1 := Scalar.cmpi .ne v484 c0_i32_326
  let v489 : BitVec 1 := Scalar.andi v488 v485
  let v490 : BitVec 32 := Scalar.addi v484 v483
  let v491 : BitVec 32 := Scalar.select v489 v490 v484
  let c1_i32_331 : BitVec 32 := 1#32
  let v493 : BitVec 32 := Scalar.muli v491 c1_i32_331
  let v494 : BitVec 32 := Scalar.addi c0_i32_332 v493
  v494.toNat
def k0_dev30 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_336 : BitVec 32 := 15#32
  let v502 : BitVec 32 := Scalar.addi v2 c15_i32_336
  let c16_i32_337 : BitVec 32 := 16#32
  let c0_i32_338 : BitVec 32 := 0#32
  let v503 : BitVec 1 := Scalar.cmpi .eq c16_i32_337 c0_i32_338
  let c1_i32_339 : BitVec 32 := 1#32
  let v504 : BitVec 32 := Scalar.select v503 c1_i32_339 c16_i32_337
  let v505 : BitVec 32 := Scalar.remsi v502 v504
  let c0_i32_341 : BitVec 32 := 0#32
  let v507 : BitVec 1 := Scalar.cmpi .slt v505 c0_i32_341
  let c0_i32_342 : BitVec 32 := 0#32
  let v508 : BitVec 1 := Scalar.cmpi .slt v504 c0_i32_342
  let v509 : BitVec 1 := Scalar.xori v507 v508
  let c0_i32_340 : BitVec 32 := 0#32
  let v506 : BitVec 1 := Scalar.cmpi .ne v505 c0_i32_340
  let v510 : BitVec 1 := Scalar.andi v509 v506
  let v511 : BitVec 32 := Scalar.addi v505 v504
  let v512 : BitVec 32 := Scalar.select v510 v511 v505
  let c1_i32_345 : BitVec 32 := 1#32
  let v514 : BitVec 32 := Scalar.muli v512 c1_i32_345
  let v515 : BitVec 32 := Scalar.addi c0_i32_346 v514
  v515.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_350 : BitVec 32 := 32#32
  let v523 : BitVec 32 := Scalar.muli v2 c32_i32_350
  let v524 : Index := Scalar.indexCast v523
  let c0_351 : Index := 0#32
  ![v524.toNat, 0]
def k0_off5 (d0 : Dev nD) (c1_i32_354 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v530 : BitVec 32 := Scalar.addi v2 c1_i32_354
  let c16_i32_355 : BitVec 32 := 16#32
  let c0_i32_356 : BitVec 32 := 0#32
  let v531 : BitVec 1 := Scalar.cmpi .eq c16_i32_355 c0_i32_356
  let c1_i32_357 : BitVec 32 := 1#32
  let v532 : BitVec 32 := Scalar.select v531 c1_i32_357 c16_i32_355
  let v533 : BitVec 32 := Scalar.remsi v530 v532
  let c0_i32_359 : BitVec 32 := 0#32
  let v535 : BitVec 1 := Scalar.cmpi .slt v533 c0_i32_359
  let c0_i32_360 : BitVec 32 := 0#32
  let v536 : BitVec 1 := Scalar.cmpi .slt v532 c0_i32_360
  let v537 : BitVec 1 := Scalar.xori v535 v536
  let c0_i32_358 : BitVec 32 := 0#32
  let v534 : BitVec 1 := Scalar.cmpi .ne v533 c0_i32_358
  let v538 : BitVec 1 := Scalar.andi v537 v534
  let v539 : BitVec 32 := Scalar.addi v533 v532
  let v540 : BitVec 32 := Scalar.select v538 v539 v533
  ![v540.toNat]
def k0_off6 (d0 : Dev nD) (c1_i32_354 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v530 : BitVec 32 := Scalar.addi v2 c1_i32_354
  let c16_i32_355 : BitVec 32 := 16#32
  let c0_i32_356 : BitVec 32 := 0#32
  let v531 : BitVec 1 := Scalar.cmpi .eq c16_i32_355 c0_i32_356
  let c1_i32_357 : BitVec 32 := 1#32
  let v532 : BitVec 32 := Scalar.select v531 c1_i32_357 c16_i32_355
  let v533 : BitVec 32 := Scalar.remsi v530 v532
  let c0_i32_359 : BitVec 32 := 0#32
  let v535 : BitVec 1 := Scalar.cmpi .slt v533 c0_i32_359
  let c0_i32_360 : BitVec 32 := 0#32
  let v536 : BitVec 1 := Scalar.cmpi .slt v532 c0_i32_360
  let v537 : BitVec 1 := Scalar.xori v535 v536
  let c0_i32_358 : BitVec 32 := 0#32
  let v534 : BitVec 1 := Scalar.cmpi .ne v533 c0_i32_358
  let v538 : BitVec 1 := Scalar.andi v537 v534
  let v539 : BitVec 32 := Scalar.addi v533 v532
  let v540 : BitVec 32 := Scalar.select v538 v539 v533
  let c0_i32_364 : BitVec 32 := 0#32
  let c0_i32_365 : BitVec 32 := 0#32
  ![v540.toNat, 0, 0]
def k0_off7 (d0 : Dev nD) (c1_i32_354 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v530 : BitVec 32 := Scalar.addi v2 c1_i32_354
  let c16_i32_355 : BitVec 32 := 16#32
  let c0_i32_356 : BitVec 32 := 0#32
  let v531 : BitVec 1 := Scalar.cmpi .eq c16_i32_355 c0_i32_356
  let c1_i32_357 : BitVec 32 := 1#32
  let v532 : BitVec 32 := Scalar.select v531 c1_i32_357 c16_i32_355
  let v533 : BitVec 32 := Scalar.remsi v530 v532
  let c0_i32_359 : BitVec 32 := 0#32
  let v535 : BitVec 1 := Scalar.cmpi .slt v533 c0_i32_359
  let c0_i32_360 : BitVec 32 := 0#32
  let v536 : BitVec 1 := Scalar.cmpi .slt v532 c0_i32_360
  let v537 : BitVec 1 := Scalar.xori v535 v536
  let c0_i32_358 : BitVec 32 := 0#32
  let v534 : BitVec 1 := Scalar.cmpi .ne v533 c0_i32_358
  let v538 : BitVec 1 := Scalar.andi v537 v534
  let v539 : BitVec 32 := Scalar.addi v533 v532
  let v540 : BitVec 32 := Scalar.select v538 v539 v533
  let v549 : Index := Scalar.indexCast v540
  let c0_370 : Index := 0#32
  let c0_371 : Index := 0#32
  ![v549.toNat, 0, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_666 : BitVec 32 := 32#32
  let v952 : BitVec 32 := Scalar.muli v2 c32_i32_666
  let c0_i32_670 : BitVec 32 := 0#32
  ![v952.toNat, 0]
def k0_dev31 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_658 : BitVec 32 := 1#32
  let v940 : BitVec 32 := Scalar.addi v2 c1_i32_658
  let c16_i32_659 : BitVec 32 := 16#32
  let c0_i32_660 : BitVec 32 := 0#32
  let v941 : BitVec 1 := Scalar.cmpi .eq c16_i32_659 c0_i32_660
  let c1_i32_661 : BitVec 32 := 1#32
  let v942 : BitVec 32 := Scalar.select v941 c1_i32_661 c16_i32_659
  let v943 : BitVec 32 := Scalar.remsi v940 v942
  let c0_i32_663 : BitVec 32 := 0#32
  let v945 : BitVec 1 := Scalar.cmpi .slt v943 c0_i32_663
  let c0_i32_664 : BitVec 32 := 0#32
  let v946 : BitVec 1 := Scalar.cmpi .slt v942 c0_i32_664
  let v947 : BitVec 1 := Scalar.xori v945 v946
  let c0_i32_662 : BitVec 32 := 0#32
  let v944 : BitVec 1 := Scalar.cmpi .ne v943 c0_i32_662
  let v948 : BitVec 1 := Scalar.andi v947 v944
  let v949 : BitVec 32 := Scalar.addi v943 v942
  let v950 : BitVec 32 := Scalar.select v948 v949 v943
  let c1_i32_668 : BitVec 32 := 1#32
  let v953 : BitVec 32 := Scalar.muli v950 c1_i32_668
  let v954 : BitVec 32 := Scalar.addi c0_i32_669 v953
  v954.toNat
def k0_dev32 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_672 : BitVec 32 := 2#32
  let v961 : BitVec 32 := Scalar.addi v2 c2_i32_672
  let c16_i32_673 : BitVec 32 := 16#32
  let c0_i32_674 : BitVec 32 := 0#32
  let v962 : BitVec 1 := Scalar.cmpi .eq c16_i32_673 c0_i32_674
  let c1_i32_675 : BitVec 32 := 1#32
  let v963 : BitVec 32 := Scalar.select v962 c1_i32_675 c16_i32_673
  let v964 : BitVec 32 := Scalar.remsi v961 v963
  let c0_i32_677 : BitVec 32 := 0#32
  let v966 : BitVec 1 := Scalar.cmpi .slt v964 c0_i32_677
  let c0_i32_678 : BitVec 32 := 0#32
  let v967 : BitVec 1 := Scalar.cmpi .slt v963 c0_i32_678
  let v968 : BitVec 1 := Scalar.xori v966 v967
  let c0_i32_676 : BitVec 32 := 0#32
  let v965 : BitVec 1 := Scalar.cmpi .ne v964 c0_i32_676
  let v969 : BitVec 1 := Scalar.andi v968 v965
  let v970 : BitVec 32 := Scalar.addi v964 v963
  let v971 : BitVec 32 := Scalar.select v969 v970 v964
  let c1_i32_682 : BitVec 32 := 1#32
  let v974 : BitVec 32 := Scalar.muli v971 c1_i32_682
  let v975 : BitVec 32 := Scalar.addi c0_i32_683 v974
  v975.toNat
def k0_dev33 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_686 : BitVec 32 := 3#32
  let v982 : BitVec 32 := Scalar.addi v2 c3_i32_686
  let c16_i32_687 : BitVec 32 := 16#32
  let c0_i32_688 : BitVec 32 := 0#32
  let v983 : BitVec 1 := Scalar.cmpi .eq c16_i32_687 c0_i32_688
  let c1_i32_689 : BitVec 32 := 1#32
  let v984 : BitVec 32 := Scalar.select v983 c1_i32_689 c16_i32_687
  let v985 : BitVec 32 := Scalar.remsi v982 v984
  let c0_i32_691 : BitVec 32 := 0#32
  let v987 : BitVec 1 := Scalar.cmpi .slt v985 c0_i32_691
  let c0_i32_692 : BitVec 32 := 0#32
  let v988 : BitVec 1 := Scalar.cmpi .slt v984 c0_i32_692
  let v989 : BitVec 1 := Scalar.xori v987 v988
  let c0_i32_690 : BitVec 32 := 0#32
  let v986 : BitVec 1 := Scalar.cmpi .ne v985 c0_i32_690
  let v990 : BitVec 1 := Scalar.andi v989 v986
  let v991 : BitVec 32 := Scalar.addi v985 v984
  let v992 : BitVec 32 := Scalar.select v990 v991 v985
  let c1_i32_696 : BitVec 32 := 1#32
  let v995 : BitVec 32 := Scalar.muli v992 c1_i32_696
  let v996 : BitVec 32 := Scalar.addi c0_i32_697 v995
  v996.toNat
def k0_dev34 (d0 : Dev nD) : Nat :=
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_700 : BitVec 32 := 4#32
  let v1003 : BitVec 32 := Scalar.addi v2 c4_i32_700
  let c16_i32_701 : BitVec 32 := 16#32
  let c0_i32_702 : BitVec 32 := 0#32
  let v1004 : BitVec 1 := Scalar.cmpi .eq c16_i32_701 c0_i32_702
  let c1_i32_703 : BitVec 32 := 1#32
  let v1005 : BitVec 32 := Scalar.select v1004 c1_i32_703 c16_i32_701
  let v1006 : BitVec 32 := Scalar.remsi v1003 v1005
  let c0_i32_705 : BitVec 32 := 0#32
  let v1008 : BitVec 1 := Scalar.cmpi .slt v1006 c0_i32_705
  let c0_i32_706 : BitVec 32 := 0#32
  let v1009 : BitVec 1 := Scalar.cmpi .slt v1005 c0_i32_706
  let v1010 : BitVec 1 := Scalar.xori v1008 v1009
  let c0_i32_704 : BitVec 32 := 0#32
  let v1007 : BitVec 1 := Scalar.cmpi .ne v1006 c0_i32_704
  let v1011 : BitVec 1 := Scalar.andi v1010 v1007
  let v1012 : BitVec 32 := Scalar.addi v1006 v1005
  let v1013 : BitVec 32 := Scalar.select v1011 v1012 v1006
  let c1_i32_710 : BitVec 32 := 1#32
  let v1016 : BitVec 32 := Scalar.muli v1013 c1_i32_710
  let v1017 : BitVec 32 := Scalar.addi c0_i32_711 v1016
  v1017.toNat
def k0_dev35 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_714 : BitVec 32 := 5#32
  let v1024 : BitVec 32 := Scalar.addi v2 c5_i32_714
  let c16_i32_715 : BitVec 32 := 16#32
  let c0_i32_716 : BitVec 32 := 0#32
  let v1025 : BitVec 1 := Scalar.cmpi .eq c16_i32_715 c0_i32_716
  let c1_i32_717 : BitVec 32 := 1#32
  let v1026 : BitVec 32 := Scalar.select v1025 c1_i32_717 c16_i32_715
  let v1027 : BitVec 32 := Scalar.remsi v1024 v1026
  let c0_i32_719 : BitVec 32 := 0#32
  let v1029 : BitVec 1 := Scalar.cmpi .slt v1027 c0_i32_719
  let c0_i32_720 : BitVec 32 := 0#32
  let v1030 : BitVec 1 := Scalar.cmpi .slt v1026 c0_i32_720
  let v1031 : BitVec 1 := Scalar.xori v1029 v1030
  let c0_i32_718 : BitVec 32 := 0#32
  let v1028 : BitVec 1 := Scalar.cmpi .ne v1027 c0_i32_718
  let v1032 : BitVec 1 := Scalar.andi v1031 v1028
  let v1033 : BitVec 32 := Scalar.addi v1027 v1026
  let v1034 : BitVec 32 := Scalar.select v1032 v1033 v1027
  let c1_i32_724 : BitVec 32 := 1#32
  let v1037 : BitVec 32 := Scalar.muli v1034 c1_i32_724
  let v1038 : BitVec 32 := Scalar.addi c0_i32_725 v1037
  v1038.toNat
def k0_dev36 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_728 : BitVec 32 := 6#32
  let v1045 : BitVec 32 := Scalar.addi v2 c6_i32_728
  let c16_i32_729 : BitVec 32 := 16#32
  let c0_i32_730 : BitVec 32 := 0#32
  let v1046 : BitVec 1 := Scalar.cmpi .eq c16_i32_729 c0_i32_730
  let c1_i32_731 : BitVec 32 := 1#32
  let v1047 : BitVec 32 := Scalar.select v1046 c1_i32_731 c16_i32_729
  let v1048 : BitVec 32 := Scalar.remsi v1045 v1047
  let c0_i32_733 : BitVec 32 := 0#32
  let v1050 : BitVec 1 := Scalar.cmpi .slt v1048 c0_i32_733
  let c0_i32_734 : BitVec 32 := 0#32
  let v1051 : BitVec 1 := Scalar.cmpi .slt v1047 c0_i32_734
  let v1052 : BitVec 1 := Scalar.xori v1050 v1051
  let c0_i32_732 : BitVec 32 := 0#32
  let v1049 : BitVec 1 := Scalar.cmpi .ne v1048 c0_i32_732
  let v1053 : BitVec 1 := Scalar.andi v1052 v1049
  let v1054 : BitVec 32 := Scalar.addi v1048 v1047
  let v1055 : BitVec 32 := Scalar.select v1053 v1054 v1048
  let c1_i32_738 : BitVec 32 := 1#32
  let v1058 : BitVec 32 := Scalar.muli v1055 c1_i32_738
  let v1059 : BitVec 32 := Scalar.addi c0_i32_739 v1058
  v1059.toNat
def k0_dev37 (d0 : Dev nD) : Nat :=
  let c0_i32_753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_742 : BitVec 32 := 7#32
  let v1066 : BitVec 32 := Scalar.addi v2 c7_i32_742
  let c16_i32_743 : BitVec 32 := 16#32
  let c0_i32_744 : BitVec 32 := 0#32
  let v1067 : BitVec 1 := Scalar.cmpi .eq c16_i32_743 c0_i32_744
  let c1_i32_745 : BitVec 32 := 1#32
  let v1068 : BitVec 32 := Scalar.select v1067 c1_i32_745 c16_i32_743
  let v1069 : BitVec 32 := Scalar.remsi v1066 v1068
  let c0_i32_747 : BitVec 32 := 0#32
  let v1071 : BitVec 1 := Scalar.cmpi .slt v1069 c0_i32_747
  let c0_i32_748 : BitVec 32 := 0#32
  let v1072 : BitVec 1 := Scalar.cmpi .slt v1068 c0_i32_748
  let v1073 : BitVec 1 := Scalar.xori v1071 v1072
  let c0_i32_746 : BitVec 32 := 0#32
  let v1070 : BitVec 1 := Scalar.cmpi .ne v1069 c0_i32_746
  let v1074 : BitVec 1 := Scalar.andi v1073 v1070
  let v1075 : BitVec 32 := Scalar.addi v1069 v1068
  let v1076 : BitVec 32 := Scalar.select v1074 v1075 v1069
  let c1_i32_752 : BitVec 32 := 1#32
  let v1079 : BitVec 32 := Scalar.muli v1076 c1_i32_752
  let v1080 : BitVec 32 := Scalar.addi c0_i32_753 v1079
  v1080.toNat
def k0_dev38 (d0 : Dev nD) : Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_756 : BitVec 32 := 8#32
  let v1087 : BitVec 32 := Scalar.addi v2 c8_i32_756
  let c16_i32_757 : BitVec 32 := 16#32
  let c0_i32_758 : BitVec 32 := 0#32
  let v1088 : BitVec 1 := Scalar.cmpi .eq c16_i32_757 c0_i32_758
  let c1_i32_759 : BitVec 32 := 1#32
  let v1089 : BitVec 32 := Scalar.select v1088 c1_i32_759 c16_i32_757
  let v1090 : BitVec 32 := Scalar.remsi v1087 v1089
  let c0_i32_761 : BitVec 32 := 0#32
  let v1092 : BitVec 1 := Scalar.cmpi .slt v1090 c0_i32_761
  let c0_i32_762 : BitVec 32 := 0#32
  let v1093 : BitVec 1 := Scalar.cmpi .slt v1089 c0_i32_762
  let v1094 : BitVec 1 := Scalar.xori v1092 v1093
  let c0_i32_760 : BitVec 32 := 0#32
  let v1091 : BitVec 1 := Scalar.cmpi .ne v1090 c0_i32_760
  let v1095 : BitVec 1 := Scalar.andi v1094 v1091
  let v1096 : BitVec 32 := Scalar.addi v1090 v1089
  let v1097 : BitVec 32 := Scalar.select v1095 v1096 v1090
  let c1_i32_766 : BitVec 32 := 1#32
  let v1100 : BitVec 32 := Scalar.muli v1097 c1_i32_766
  let v1101 : BitVec 32 := Scalar.addi c0_i32_767 v1100
  v1101.toNat
def k0_dev39 (d0 : Dev nD) : Nat :=
  let c0_i32_781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_770 : BitVec 32 := 9#32
  let v1108 : BitVec 32 := Scalar.addi v2 c9_i32_770
  let c16_i32_771 : BitVec 32 := 16#32
  let c0_i32_772 : BitVec 32 := 0#32
  let v1109 : BitVec 1 := Scalar.cmpi .eq c16_i32_771 c0_i32_772
  let c1_i32_773 : BitVec 32 := 1#32
  let v1110 : BitVec 32 := Scalar.select v1109 c1_i32_773 c16_i32_771
  let v1111 : BitVec 32 := Scalar.remsi v1108 v1110
  let c0_i32_775 : BitVec 32 := 0#32
  let v1113 : BitVec 1 := Scalar.cmpi .slt v1111 c0_i32_775
  let c0_i32_776 : BitVec 32 := 0#32
  let v1114 : BitVec 1 := Scalar.cmpi .slt v1110 c0_i32_776
  let v1115 : BitVec 1 := Scalar.xori v1113 v1114
  let c0_i32_774 : BitVec 32 := 0#32
  let v1112 : BitVec 1 := Scalar.cmpi .ne v1111 c0_i32_774
  let v1116 : BitVec 1 := Scalar.andi v1115 v1112
  let v1117 : BitVec 32 := Scalar.addi v1111 v1110
  let v1118 : BitVec 32 := Scalar.select v1116 v1117 v1111
  let c1_i32_780 : BitVec 32 := 1#32
  let v1121 : BitVec 32 := Scalar.muli v1118 c1_i32_780
  let v1122 : BitVec 32 := Scalar.addi c0_i32_781 v1121
  v1122.toNat
def k0_dev40 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_784 : BitVec 32 := 10#32
  let v1129 : BitVec 32 := Scalar.addi v2 c10_i32_784
  let c16_i32_785 : BitVec 32 := 16#32
  let c0_i32_786 : BitVec 32 := 0#32
  let v1130 : BitVec 1 := Scalar.cmpi .eq c16_i32_785 c0_i32_786
  let c1_i32_787 : BitVec 32 := 1#32
  let v1131 : BitVec 32 := Scalar.select v1130 c1_i32_787 c16_i32_785
  let v1132 : BitVec 32 := Scalar.remsi v1129 v1131
  let c0_i32_789 : BitVec 32 := 0#32
  let v1134 : BitVec 1 := Scalar.cmpi .slt v1132 c0_i32_789
  let c0_i32_790 : BitVec 32 := 0#32
  let v1135 : BitVec 1 := Scalar.cmpi .slt v1131 c0_i32_790
  let v1136 : BitVec 1 := Scalar.xori v1134 v1135
  let c0_i32_788 : BitVec 32 := 0#32
  let v1133 : BitVec 1 := Scalar.cmpi .ne v1132 c0_i32_788
  let v1137 : BitVec 1 := Scalar.andi v1136 v1133
  let v1138 : BitVec 32 := Scalar.addi v1132 v1131
  let v1139 : BitVec 32 := Scalar.select v1137 v1138 v1132
  let c1_i32_794 : BitVec 32 := 1#32
  let v1142 : BitVec 32 := Scalar.muli v1139 c1_i32_794
  let v1143 : BitVec 32 := Scalar.addi c0_i32_795 v1142
  v1143.toNat
def k0_dev41 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_798 : BitVec 32 := 11#32
  let v1150 : BitVec 32 := Scalar.addi v2 c11_i32_798
  let c16_i32_799 : BitVec 32 := 16#32
  let c0_i32_800 : BitVec 32 := 0#32
  let v1151 : BitVec 1 := Scalar.cmpi .eq c16_i32_799 c0_i32_800
  let c1_i32_801 : BitVec 32 := 1#32
  let v1152 : BitVec 32 := Scalar.select v1151 c1_i32_801 c16_i32_799
  let v1153 : BitVec 32 := Scalar.remsi v1150 v1152
  let c0_i32_803 : BitVec 32 := 0#32
  let v1155 : BitVec 1 := Scalar.cmpi .slt v1153 c0_i32_803
  let c0_i32_804 : BitVec 32 := 0#32
  let v1156 : BitVec 1 := Scalar.cmpi .slt v1152 c0_i32_804
  let v1157 : BitVec 1 := Scalar.xori v1155 v1156
  let c0_i32_802 : BitVec 32 := 0#32
  let v1154 : BitVec 1 := Scalar.cmpi .ne v1153 c0_i32_802
  let v1158 : BitVec 1 := Scalar.andi v1157 v1154
  let v1159 : BitVec 32 := Scalar.addi v1153 v1152
  let v1160 : BitVec 32 := Scalar.select v1158 v1159 v1153
  let c1_i32_808 : BitVec 32 := 1#32
  let v1163 : BitVec 32 := Scalar.muli v1160 c1_i32_808
  let v1164 : BitVec 32 := Scalar.addi c0_i32_809 v1163
  v1164.toNat
def k0_dev42 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_812 : BitVec 32 := 12#32
  let v1171 : BitVec 32 := Scalar.addi v2 c12_i32_812
  let c16_i32_813 : BitVec 32 := 16#32
  let c0_i32_814 : BitVec 32 := 0#32
  let v1172 : BitVec 1 := Scalar.cmpi .eq c16_i32_813 c0_i32_814
  let c1_i32_815 : BitVec 32 := 1#32
  let v1173 : BitVec 32 := Scalar.select v1172 c1_i32_815 c16_i32_813
  let v1174 : BitVec 32 := Scalar.remsi v1171 v1173
  let c0_i32_817 : BitVec 32 := 0#32
  let v1176 : BitVec 1 := Scalar.cmpi .slt v1174 c0_i32_817
  let c0_i32_818 : BitVec 32 := 0#32
  let v1177 : BitVec 1 := Scalar.cmpi .slt v1173 c0_i32_818
  let v1178 : BitVec 1 := Scalar.xori v1176 v1177
  let c0_i32_816 : BitVec 32 := 0#32
  let v1175 : BitVec 1 := Scalar.cmpi .ne v1174 c0_i32_816
  let v1179 : BitVec 1 := Scalar.andi v1178 v1175
  let v1180 : BitVec 32 := Scalar.addi v1174 v1173
  let v1181 : BitVec 32 := Scalar.select v1179 v1180 v1174
  let c1_i32_822 : BitVec 32 := 1#32
  let v1184 : BitVec 32 := Scalar.muli v1181 c1_i32_822
  let v1185 : BitVec 32 := Scalar.addi c0_i32_823 v1184
  v1185.toNat
def k0_dev43 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_826 : BitVec 32 := 13#32
  let v1192 : BitVec 32 := Scalar.addi v2 c13_i32_826
  let c16_i32_827 : BitVec 32 := 16#32
  let c0_i32_828 : BitVec 32 := 0#32
  let v1193 : BitVec 1 := Scalar.cmpi .eq c16_i32_827 c0_i32_828
  let c1_i32_829 : BitVec 32 := 1#32
  let v1194 : BitVec 32 := Scalar.select v1193 c1_i32_829 c16_i32_827
  let v1195 : BitVec 32 := Scalar.remsi v1192 v1194
  let c0_i32_831 : BitVec 32 := 0#32
  let v1197 : BitVec 1 := Scalar.cmpi .slt v1195 c0_i32_831
  let c0_i32_832 : BitVec 32 := 0#32
  let v1198 : BitVec 1 := Scalar.cmpi .slt v1194 c0_i32_832
  let v1199 : BitVec 1 := Scalar.xori v1197 v1198
  let c0_i32_830 : BitVec 32 := 0#32
  let v1196 : BitVec 1 := Scalar.cmpi .ne v1195 c0_i32_830
  let v1200 : BitVec 1 := Scalar.andi v1199 v1196
  let v1201 : BitVec 32 := Scalar.addi v1195 v1194
  let v1202 : BitVec 32 := Scalar.select v1200 v1201 v1195
  let c1_i32_836 : BitVec 32 := 1#32
  let v1205 : BitVec 32 := Scalar.muli v1202 c1_i32_836
  let v1206 : BitVec 32 := Scalar.addi c0_i32_837 v1205
  v1206.toNat
def k0_dev44 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_840 : BitVec 32 := 14#32
  let v1213 : BitVec 32 := Scalar.addi v2 c14_i32_840
  let c16_i32_841 : BitVec 32 := 16#32
  let c0_i32_842 : BitVec 32 := 0#32
  let v1214 : BitVec 1 := Scalar.cmpi .eq c16_i32_841 c0_i32_842
  let c1_i32_843 : BitVec 32 := 1#32
  let v1215 : BitVec 32 := Scalar.select v1214 c1_i32_843 c16_i32_841
  let v1216 : BitVec 32 := Scalar.remsi v1213 v1215
  let c0_i32_845 : BitVec 32 := 0#32
  let v1218 : BitVec 1 := Scalar.cmpi .slt v1216 c0_i32_845
  let c0_i32_846 : BitVec 32 := 0#32
  let v1219 : BitVec 1 := Scalar.cmpi .slt v1215 c0_i32_846
  let v1220 : BitVec 1 := Scalar.xori v1218 v1219
  let c0_i32_844 : BitVec 32 := 0#32
  let v1217 : BitVec 1 := Scalar.cmpi .ne v1216 c0_i32_844
  let v1221 : BitVec 1 := Scalar.andi v1220 v1217
  let v1222 : BitVec 32 := Scalar.addi v1216 v1215
  let v1223 : BitVec 32 := Scalar.select v1221 v1222 v1216
  let c1_i32_850 : BitVec 32 := 1#32
  let v1226 : BitVec 32 := Scalar.muli v1223 c1_i32_850
  let v1227 : BitVec 32 := Scalar.addi c0_i32_851 v1226
  v1227.toNat
def k0_dev45 (d0 : Dev nD) : Nat :=
  let c0_i32_865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_854 : BitVec 32 := 15#32
  let v1234 : BitVec 32 := Scalar.addi v2 c15_i32_854
  let c16_i32_855 : BitVec 32 := 16#32
  let c0_i32_856 : BitVec 32 := 0#32
  let v1235 : BitVec 1 := Scalar.cmpi .eq c16_i32_855 c0_i32_856
  let c1_i32_857 : BitVec 32 := 1#32
  let v1236 : BitVec 32 := Scalar.select v1235 c1_i32_857 c16_i32_855
  let v1237 : BitVec 32 := Scalar.remsi v1234 v1236
  let c0_i32_859 : BitVec 32 := 0#32
  let v1239 : BitVec 1 := Scalar.cmpi .slt v1237 c0_i32_859
  let c0_i32_860 : BitVec 32 := 0#32
  let v1240 : BitVec 1 := Scalar.cmpi .slt v1236 c0_i32_860
  let v1241 : BitVec 1 := Scalar.xori v1239 v1240
  let c0_i32_858 : BitVec 32 := 0#32
  let v1238 : BitVec 1 := Scalar.cmpi .ne v1237 c0_i32_858
  let v1242 : BitVec 1 := Scalar.andi v1241 v1238
  let v1243 : BitVec 32 := Scalar.addi v1237 v1236
  let v1244 : BitVec 32 := Scalar.select v1242 v1243 v1237
  let c1_i32_864 : BitVec 32 := 1#32
  let v1247 : BitVec 32 := Scalar.muli v1244 c1_i32_864
  let v1248 : BitVec 32 := Scalar.addi c0_i32_865 v1247
  v1248.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  hamt_15 : (15#32 : BitVec 32).msb = false
  inb_S16_S1_1 : ∀ a, (![1] : Fin 1 → Nat) a + S1.size a ≤ S16.size a
  squeezes_S1_S_ : S1.Squeezes S_
  squeezes_S1x32x512_S32x512 : S1x32x512.Squeezes S32x512
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  h_S32x512 : 0 < S32x512.numel
  inb_S32x512_S32x512_0_0 : ∀ a, (![0, 0] : Fin 2 → Nat) a + S32x512.size a ≤ S32x512.size a
  shapeCasts_S32x512_S32x512 : S32x512.ShapeCasts S32x512
  inb_S512x512_S32x512_0_0 : ∀ a, (![0, 0] : Fin 2 → Nat) a + S32x512.size a ≤ S512x512.size a
  wordsbf16_S512x512_S32x512_0_0 : (Rect.unit (s := S512x512) ![0, 0] S32x512.size inb_S512x512_S32x512_0_0).WholeWords (EltTy.packing .bf16)
  h_S1x32x512 : 0 < S1x32x512.numel
  shapeCasts_S1x32x512_S32x512 : S1x32x512.ShapeCasts S32x512
  dot_S512x256_S256x512_S512x512_1_0_0_1_n_n_wf : DotDims.WF S512x256 S256x512 S512x512 [1] [0] [0] [1] [] []
  hcc0_scratch3 : 3 + S16.numel ≤ 67
  hcc0_scratch4 : 19 + S16.numel ≤ 67
  hcc0_scratch5 : 35 + S16.numel ≤ 67
  hcc0_scratch6 : 51 + S16.numel ≤ 67
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1.size a ≤ S16.size a
  k0_off2_inb : ∀ d0 : Dev nD, ∀ a, (k0_off2 d0) a + S1x32x512.size a ≤ S16x32x512.size a
  k0_off3_inb : ∀ d0 : Dev nD, ∀ (r : Fin 15), ∀ a, (k0_off3 d0 (BitVec.ofNat 32 (1 + r.val))) a + S32x512.size a ≤ S512x512.size a
  k0_off3_wordsbf16 : ∀ d0 : Dev nD, ∀ (r : Fin 15), (Rect.unit (s := S512x512) (k0_off3 d0 (BitVec.ofNat 32 (1 + r.val))) S32x512.size (k0_off3_inb d0 r)).WholeWords (EltTy.packing .bf16)
  k0_off2_wordsbf16 : ∀ d0 : Dev nD, (Rect.unit (s := S16x32x512) (k0_off2 d0) S1x32x512.size (k0_off2_inb d0)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off4_inb : ∀ d0 : Dev nD, ∀ a, (k0_off4 d0) a + S32x512.size a ≤ S512x512.size a
  k0_off5_inb : ∀ d0 : Dev nD, ∀ (r : Fin 15), ∀ a, (k0_off5 d0 (BitVec.ofNat 32 (1 + r.val))) a + S1.size a ≤ S16.size a
  k0_off6_inb : ∀ d0 : Dev nD, ∀ (r : Fin 15), ∀ a, (k0_off6 d0 (BitVec.ofNat 32 (1 + r.val))) a + S1x32x512.size a ≤ S16x32x512.size a
  k0_off6_wordsbf16 : ∀ d0 : Dev nD, ∀ (r : Fin 15), (Rect.unit (s := S16x32x512) (k0_off6 d0 (BitVec.ofNat 32 (1 + r.val))) S1x32x512.size (k0_off6_inb d0 r)).WholeWords (EltTy.packing .bf16)
  k0_off7_inb : ∀ d0 : Dev nD, ∀ (r : Fin 15), ∀ a, (k0_off7 d0 (BitVec.ofNat 32 (1 + r.val))) a + S1x32x512.size a ≤ S16x32x512.size a
  k0_off4_packedbf16 : ∀ d0 : Dev nD, (Rect.unit (s := S512x512) (k0_off4 d0) S32x512.size (k0_off4_inb d0)).PackedRows (EltTy.packing .bf16)
  k0_off8_inb : ∀ d0 : Dev nD, ∀ a, (k0_off8 d0) a + S32x512.size a ≤ S512x512.size a
  k0_off8_wordsbf16 : ∀ d0 : Dev nD, (Rect.unit (s := S512x512) (k0_off8 d0) S32x512.size (k0_off8_inb d0)).WholeWords (EltTy.packing .bf16)
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  hstage0_0 : ∀ j, (stage0_0 j).IsWhole
  hstage0_1 : ∀ j, (stage0_1 j).IsWhole
  hstage0_2 : ∀ j, (stage0_2 j).IsWhole

variable [Facts₀]

abbrev cc0_scratch3 : DmaSems sig S16 := SemArray.consecutive 3 S16 hcc0_scratch3
abbrev cc0_scratch4 : DmaSems sig S16 := SemArray.consecutive 19 S16 hcc0_scratch4
abbrev cc0_scratch5 : DmaSems sig S16 := SemArray.consecutive 35 S16 hcc0_scratch5
abbrev cc0_scratch6 : DmaSems sig S16 := SemArray.consecutive 51 S16 hcc0_scratch6
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x512, .f32⟩
  | .hbm, ⟨2, _⟩ => ⟨S512x512, .f32⟩
  | .hbm, ⟨3, _⟩ => ⟨S512x512, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bitsLt_bf16_f32 : FTy.bits .bf16 < FTy.bits .f32
  dot_S512x4096_S4096x512_S512x512_1_0_0_1_n_n_wf : DotDims.WF S512x4096 S4096x512 S512x512 [1] [0] [0] [1] [] []

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

class Facts : Prop extends Facts₀ where

variable [Facts]
-- ==== Proof.Mesh.lean ====
import proofs.«900887_g7700000000000888_dist_matmul_k_i_m512_n512_k256_v7x_i16_bf16_1_alg».proof.Proof.Gen.KernelIdeal

set_option Elab.async false

namespace Cert.KernelIdeal.Dist

open Cert.KernelIdeal Cert.KernelIdeal.Gen Idealize.ShloMosaic

/- The device `k` places ahead of `c` on the ring of sixteen; `bwd`, `k` places behind. -/
def fwd (k : ℕ) (c : Dev nD) : Dev nD := ⟨(c.val + k) % 16, Nat.mod_lt _ (by decide)⟩

def bwd (k : ℕ) (c : Dev nD) : Dev nD := ⟨(c.val + (16 - k % 16)) % 16, Nat.mod_lt _ (by decide)⟩

@[simp] theorem fwd_val (k : ℕ) (c : Dev nD) : (fwd k c).val = (c.val + k) % 16 := rfl

@[simp] theorem bwd_val (k : ℕ) (c : Dev nD) : (bwd k c).val = (c.val + (16 - k % 16)) % 16 := rfl

theorem bwd_fwd (k : ℕ) (c : Dev nD) : bwd k (fwd k c) = c := by
  have hc : c.val < 16 := c.isLt
  apply Fin.ext
  simp only [bwd_val, fwd_val]
  omega

theorem fwd_bwd (k : ℕ) (c : Dev nD) : fwd k (bwd k c) = c := by
  have hc : c.val < 16 := c.isLt
  apply Fin.ext
  simp only [bwd_val, fwd_val]
  omega

theorem fwd_ne_self (r : Fin 15) (c : Dev nD) : fwd (1 + r.val) c ≠ c := by
  have hc : c.val < 16 := c.isLt
  have hr : r.val < 15 := r.isLt
  intro e
  have := congrArg Fin.val e
  simp only [fwd_val] at this
  omega

theorem fwd_inj_offset (r r' : Fin 15) (c : Dev nD) : fwd (1 + r.val) c = fwd (1 + r'.val) c → r = r' := by
  intro e
  have hc : c.val < 16 := c.isLt
  have hr : r.val < 15 := r.isLt
  have hr' : r'.val < 15 := r'.isLt
  have := congrArg Fin.val e
  simp only [fwd_val] at this
  apply Fin.ext
  omega

theorem exists_fwd_of_ne (c s : Dev nD) (h : s ≠ c) : ∃ r : Fin 15, s = fwd (1 + r.val) c := by
  have hc : c.val < 16 := c.isLt
  have hs : s.val < 16 := s.isLt
  have hne : s.val ≠ c.val := fun e => h (Fin.ext e)
  refine ⟨⟨(s.val + 15 - c.val) % 16, by omega⟩, Fin.ext ?_⟩
  simp only [fwd_val]
  omega

theorem dev1_eq (c : Dev nD) : (⟨k0_dev1 c, k0_dev1_lt c⟩ : Dev nD) = fwd 1 c := by
  revert c; decide +kernel
theorem dev2_eq (c : Dev nD) : (⟨k0_dev2 c, k0_dev2_lt c⟩ : Dev nD) = fwd 2 c := by
  revert c; decide +kernel
theorem dev3_eq (c : Dev nD) : (⟨k0_dev3 c, k0_dev3_lt c⟩ : Dev nD) = fwd 3 c := by
  revert c; decide +kernel
theorem dev4_eq (c : Dev nD) : (⟨k0_dev4 c, k0_dev4_lt c⟩ : Dev nD) = fwd 4 c := by
  revert c; decide +kernel
theorem dev5_eq (c : Dev nD) : (⟨k0_dev5 c, k0_dev5_lt c⟩ : Dev nD) = fwd 5 c := by
  revert c; decide +kernel
theorem dev6_eq (c : Dev nD) : (⟨k0_dev6 c, k0_dev6_lt c⟩ : Dev nD) = fwd 6 c := by
  revert c; decide +kernel
theorem dev7_eq (c : Dev nD) : (⟨k0_dev7 c, k0_dev7_lt c⟩ : Dev nD) = fwd 7 c := by
  revert c; decide +kernel
theorem dev8_eq (c : Dev nD) : (⟨k0_dev8 c, k0_dev8_lt c⟩ : Dev nD) = fwd 8 c := by
  revert c; decide +kernel
theorem dev9_eq (c : Dev nD) : (⟨k0_dev9 c, k0_dev9_lt c⟩ : Dev nD) = fwd 9 c := by
  revert c; decide +kernel
theorem dev10_eq (c : Dev nD) : (⟨k0_dev10 c, k0_dev10_lt c⟩ : Dev nD) = fwd 10 c := by
  revert c; decide +kernel
theorem dev11_eq (c : Dev nD) : (⟨k0_dev11 c, k0_dev11_lt c⟩ : Dev nD) = fwd 11 c := by
  revert c; decide +kernel
theorem dev12_eq (c : Dev nD) : (⟨k0_dev12 c, k0_dev12_lt c⟩ : Dev nD) = fwd 12 c := by
  revert c; decide +kernel
theorem dev13_eq (c : Dev nD) : (⟨k0_dev13 c, k0_dev13_lt c⟩ : Dev nD) = fwd 13 c := by
  revert c; decide +kernel
theorem dev14_eq (c : Dev nD) : (⟨k0_dev14 c, k0_dev14_lt c⟩ : Dev nD) = fwd 14 c := by
  revert c; decide +kernel
theorem dev15_eq (c : Dev nD) : (⟨k0_dev15 c, k0_dev15_lt c⟩ : Dev nD) = fwd 15 c := by
  revert c; decide +kernel

theorem dev16_eq (c : Dev nD) : (⟨k0_dev16 c, k0_dev16_lt c⟩ : Dev nD) = fwd 1 c := by
  revert c; decide +kernel
theorem dev17_eq (c : Dev nD) : (⟨k0_dev17 c, k0_dev17_lt c⟩ : Dev nD) = fwd 2 c := by
  revert c; decide +kernel
theorem dev18_eq (c : Dev nD) : (⟨k0_dev18 c, k0_dev18_lt c⟩ : Dev nD) = fwd 3 c := by
  revert c; decide +kernel
theorem dev19_eq (c : Dev nD) : (⟨k0_dev19 c, k0_dev19_lt c⟩ : Dev nD) = fwd 4 c := by
  revert c; decide +kernel
theorem dev20_eq (c : Dev nD) : (⟨k0_dev20 c, k0_dev20_lt c⟩ : Dev nD) = fwd 5 c := by
  revert c; decide +kernel
theorem dev21_eq (c : Dev nD) : (⟨k0_dev21 c, k0_dev21_lt c⟩ : Dev nD) = fwd 6 c := by
  revert c; decide +kernel
theorem dev22_eq (c : Dev nD) : (⟨k0_dev22 c, k0_dev22_lt c⟩ : Dev nD) = fwd 7 c := by
  revert c; decide +kernel
theorem dev23_eq (c : Dev nD) : (⟨k0_dev23 c, k0_dev23_lt c⟩ : Dev nD) = fwd 8 c := by
  revert c; decide +kernel
theorem dev24_eq (c : Dev nD) : (⟨k0_dev24 c, k0_dev24_lt c⟩ : Dev nD) = fwd 9 c := by
  revert c; decide +kernel
theorem dev25_eq (c : Dev nD) : (⟨k0_dev25 c, k0_dev25_lt c⟩ : Dev nD) = fwd 10 c := by
  revert c; decide +kernel
theorem dev26_eq (c : Dev nD) : (⟨k0_dev26 c, k0_dev26_lt c⟩ : Dev nD) = fwd 11 c := by
  revert c; decide +kernel
theorem dev27_eq (c : Dev nD) : (⟨k0_dev27 c, k0_dev27_lt c⟩ : Dev nD) = fwd 12 c := by
  revert c; decide +kernel
theorem dev28_eq (c : Dev nD) : (⟨k0_dev28 c, k0_dev28_lt c⟩ : Dev nD) = fwd 13 c := by
  revert c; decide +kernel
theorem dev29_eq (c : Dev nD) : (⟨k0_dev29 c, k0_dev29_lt c⟩ : Dev nD) = fwd 14 c := by
  revert c; decide +kernel
theorem dev30_eq (c : Dev nD) : (⟨k0_dev30 c, k0_dev30_lt c⟩ : Dev nD) = fwd 15 c := by
  revert c; decide +kernel

theorem dev31_eq (c : Dev nD) : (⟨k0_dev31 c, k0_dev31_lt c⟩ : Dev nD) = fwd 1 c := by
  revert c; decide +kernel
theorem dev32_eq (c : Dev nD) : (⟨k0_dev32 c, k0_dev32_lt c⟩ : Dev nD) = fwd 2 c := by
  revert c; decide +kernel
theorem dev33_eq (c : Dev nD) : (⟨k0_dev33 c, k0_dev33_lt c⟩ : Dev nD) = fwd 3 c := by
  revert c; decide +kernel
theorem dev34_eq (c : Dev nD) : (⟨k0_dev34 c, k0_dev34_lt c⟩ : Dev nD) = fwd 4 c := by
  revert c; decide +kernel
theorem dev35_eq (c : Dev nD) : (⟨k0_dev35 c, k0_dev35_lt c⟩ : Dev nD) = fwd 5 c := by
  revert c; decide +kernel
theorem dev36_eq (c : Dev nD) : (⟨k0_dev36 c, k0_dev36_lt c⟩ : Dev nD) = fwd 6 c := by
  revert c; decide +kernel
theorem dev37_eq (c : Dev nD) : (⟨k0_dev37 c, k0_dev37_lt c⟩ : Dev nD) = fwd 7 c := by
  revert c; decide +kernel
theorem dev38_eq (c : Dev nD) : (⟨k0_dev38 c, k0_dev38_lt c⟩ : Dev nD) = fwd 8 c := by
  revert c; decide +kernel
theorem dev39_eq (c : Dev nD) : (⟨k0_dev39 c, k0_dev39_lt c⟩ : Dev nD) = fwd 9 c := by
  revert c; decide +kernel
theorem dev40_eq (c : Dev nD) : (⟨k0_dev40 c, k0_dev40_lt c⟩ : Dev nD) = fwd 10 c := by
  revert c; decide +kernel
theorem dev41_eq (c : Dev nD) : (⟨k0_dev41 c, k0_dev41_lt c⟩ : Dev nD) = fwd 11 c := by
  revert c; decide +kernel
theorem dev42_eq (c : Dev nD) : (⟨k0_dev42 c, k0_dev42_lt c⟩ : Dev nD) = fwd 12 c := by
  revert c; decide +kernel
theorem dev43_eq (c : Dev nD) : (⟨k0_dev43 c, k0_dev43_lt c⟩ : Dev nD) = fwd 13 c := by
  revert c; decide +kernel
theorem dev44_eq (c : Dev nD) : (⟨k0_dev44 c, k0_dev44_lt c⟩ : Dev nD) = fwd 14 c := by
  revert c; decide +kernel
theorem dev45_eq (c : Dev nD) : (⟨k0_dev45 c, k0_dev45_lt c⟩ : Dev nD) = fwd 15 c := by
  revert c; decide +kernel

theorem off3_eq (c : Dev nD) (r : Fin 15) :
    k0_off3 c (BitVec.ofNat 32 (1 + r.val)) = ![32 * (fwd (1 + r.val) c).val, 0] := by
  revert c r; decide +kernel

theorem off5_eq (c : Dev nD) (r : Fin 15) :
    k0_off5 c (BitVec.ofNat 32 (1 + r.val)) = ![(fwd (1 + r.val) c).val] := by
  revert c r; decide +kernel

theorem off7_eq (c : Dev nD) (r : Fin 15) :
    k0_off7 c (BitVec.ofNat 32 (1 + r.val)) = ![(fwd (1 + r.val) c).val, 0, 0] := by
  revert c r; decide +kernel

theorem rowMajor_S16 (x : S16.Idx) : (S16.rowMajor x).val = (x 0).val := by
  show (x 0).val * 1 + 0 = (x 0).val
  omega

theorem cell_val (base : ℕ) (hb : base + S16.numel ≤ 67) (off : Fin 1 → ℕ)
    (h : ∀ a, off a + S1.size a ≤ S16.size a) (j : (Rect.unit (s := S16) off S1.size h).shape.Idx) :
    ((SemArray.consecutive base S16 hb : SemArray (Fin 67) S16).ix
        ((Rect.unit (s := S16) off S1.size h).emb j)).val = base + off 0 := by
  have hj : ((j 0 : Fin _) : ℕ) < 1 := (j 0).isLt
  show base + (S16.rowMajor _).val = _
  rw [rowMajor_S16, Rect.emb_apply]
  simp only [Rect.off_unit, Rect.stride_unit]
  omega

theorem semAt_eq (base : ℕ) (hb : base + S16.numel ≤ 67) (off : Fin 1 → ℕ) (h : ∀ a, off a + S1.size a ≤ S16.size a) :
    (((SemArray.consecutive base S16 hb : DmaSems sig S16).slice (Rect.unit (s := S16) off S1.size h)).squeeze S_ squeezes_S1_S_).sem
      = (⟨base + off 0, by
          have h0 : off 0 + 1 ≤ 16 := h 0
          have hn : S16.numel = 16 := by decide
          show base + off 0 < 67
          omega⟩ : DmaSem sig) :=
  Fin.ext (cell_val base hb off h _)

theorem semAt_lit (base : ℕ) (hb : base + S16.numel ≤ 67) (j : ℕ) (h : ∀ a, (![j] : Fin 1 → ℕ) a + S1.size a ≤ S16.size a) :
    (((SemArray.consecutive base S16 hb : DmaSems sig S16).slice (Rect.unit (s := S16) ![j] S1.size h)).squeeze S_ squeezes_S1_S_).sem
      = (⟨base + j, by
          have h0 : j + 1 ≤ 16 := h 0
          have hn : S16.numel = 16 := by decide
          show base + j < 67
          omega⟩ : DmaSem sig) :=
  semAt_eq base hb ![j] h

theorem semAt_own (base : ℕ) (hb : base + S16.numel ≤ 67) (c : Dev nD) :
    (((SemArray.consecutive base S16 hb : DmaSems sig S16).slice (Rect.unit (s := S16) (k0_off1 c) S1.size (k0_off1_inb c))).squeeze S_ squeezes_S1_S_).sem
      = (⟨base + c.val, by
          have hc : c.val < 16 := c.isLt
          have hn : S16.numel = 16 := by decide
          show base + c.val < 67
          omega⟩ : DmaSem sig) := by
  rw [semAt_eq]
  apply Fin.ext
  show base + k0_off1 c 0 = base + c.val
  rw [k0_off1_eq]
  rfl

theorem semAt_fwd (base : ℕ) (hb : base + S16.numel ≤ 67) (c : Dev nD) (r : Fin 15) :
    (((SemArray.consecutive base S16 hb : DmaSems sig S16).slice (Rect.unit (s := S16) (k0_off5 c (BitVec.ofNat 32 (1 + r.val))) S1.size (k0_off5_inb c r))).squeeze S_ squeezes_S1_S_).sem
      = (⟨base + (fwd (1 + r.val) c).val, by
          have hc : (fwd (1 + r.val) c).val < 16 := (fwd (1 + r.val) c).isLt
          have hn : S16.numel = 16 := by decide
          show base + (fwd (1 + r.val) c).val < 67
          omega⟩ : DmaSem sig) := by
  rw [semAt_eq]
  apply Fin.ext
  show base + k0_off5 c (BitVec.ofNat 32 (1 + r.val)) 0 = base + (fwd (1 + r.val) c).val
  rw [off5_eq]
  rfl

end Cert.KernelIdeal.Dist
-- ==== Proof.Contents.lean ====
import proofs.«900887_g7700000000000888_dist_matmul_k_i_m512_n512_k256_v7x_i16_bf16_1_alg».proof.Proof.Gen.KernelIdeal.Skeleton
import proofs.«900887_g7700000000000888_dist_matmul_k_i_m512_n512_k256_v7x_i16_bf16_1_alg».proof.Proof.Gen.KernelIdeal.Launch
import proofs.«900887_g7700000000000888_dist_matmul_k_i_m512_n512_k256_v7x_i16_bf16_1_alg».proof.Proof.Mesh
import Idealize.ShloMosaic.Lib.ValueIdx

noncomputable section

namespace Cert.KernelIdeal.Dist

open Cert.KernelIdeal Cert.KernelIdeal.Gen
open Idealize.ShloMosaic Idealize.ShloMosaic.TcCoe Idealize.SL.Sem

variable {F : FTy → Type} [FloatOps F]

abbrev aM : Memref sig .tc .vmem S512x256 .f32 := Memref.whole cc0_stg0_0
abbrev bM : Memref sig .tc .vmem S256x512 .f32 := Memref.whole cc0_stg1_0

abbrev oM : Memref sig .tc .vmem S512x512 .bf16 := Memref.whole cc0_stg2_0

abbrev pM : Memref sig .tc .vmem S512x512 .bf16 := Memref.whole cc0_scratch0

abbrev rM : Memref sig .tc .vmem S16x32x512 .bf16 := Memref.whole cc0_scratch1

abbrev accM : Memref sig .tc .vmem S32x512 .f32 := Memref.whole cc0_scratch2

abbrev pSlice (c : Dev nD) (r : Fin 15) : Memref sig .tc .vmem S32x512 .bf16 :=
  pM.slice (Rect.unit (s := S512x512) (k0_off3 c (BitVec.ofNat 32 (1 + r.val))) S32x512.size (k0_off3_inb c r)) (fun _ => rfl)

abbrev pOwn (c : Dev nD) : Memref sig .tc .vmem S32x512 .bf16 :=
  pM.slice (Rect.unit (s := S512x512) (k0_off4 c) S32x512.size (k0_off4_inb c)) (fun _ => rfl)

abbrev rSlot (c : Dev nD) : Memref sig .tc .vmem S32x512 .bf16 :=
  (rM.slice (Rect.unit (s := S16x32x512) (k0_off2 c) S1x32x512.size (k0_off2_inb c)) (fun _ => rfl)).squeeze S32x512 squeezes_S1x32x512_S32x512

abbrev rSlotAt (c : Dev nD) (r : Fin 15) : Memref sig .tc .vmem S32x512 .bf16 :=
  (rM.slice (Rect.unit (s := S16x32x512) (k0_off6 c (BitVec.ofNat 32 (1 + r.val))) S1x32x512.size (k0_off6_inb c r)) (fun _ => rfl)).squeeze S32x512 squeezes_S1x32x512_S32x512

abbrev oRows (c : Dev nD) : Memref sig .tc .vmem S32x512 .bf16 :=
  oM.slice (Rect.unit (s := S512x512) (k0_off8 c) S32x512.size (k0_off8_inb c)) (fun _ => rfl)

abbrev oRowsAt (c : Dev nD) (r : Fin 15) : Memref sig .tc .vmem S32x512 .bf16 :=
  oM.slice (Rect.unit (s := S512x512) (k0_off3 c (BitVec.ofNat 32 (1 + r.val))) S32x512.size (k0_off3_inb c r)) (fun _ => rfl)

def rowIx (k : Fin 16) (r : Fin 32) : Fin 512 := ⟨32 * k.val + r.val, by have := k.isLt; have := r.isLt; omega⟩

def blkOf (i : Fin 512) : Fin 16 := ⟨i.val / 32, by have := i.isLt; omega⟩
def inBlk (i : Fin 512) : Fin 32 := ⟨i.val % 32, Nat.mod_lt _ (by decide)⟩

theorem rowIx_blk_in (i : Fin 512) : rowIx (blkOf i) (inBlk i) = i := Fin.ext (by simp only [rowIx, blkOf, inBlk]; omega)
theorem blkOf_rowIx (k : Fin 16) (r : Fin 32) : blkOf (rowIx k r) = k := Fin.ext (by simp only [rowIx, blkOf]; have := r.isLt; omega)
theorem inBlk_rowIx (k : Fin 16) (r : Fin 32) : inBlk (rowIx k r) = r := Fin.ext (by simp only [rowIx, inBlk]; have := r.isLt; omega)

def rowsOf {φ : EltTy} (k : Fin 16) (P : Vec F S512x512 φ) : Vec F S32x512 φ :=
  fun i => P (ValueIdx.ix2 (rowIx k (i 0)) (i 1))

variable (m : (ℓ : Loc nD τ sig) → Buf (Elt F) ℓ)

def aOf (s : Dev nD) : Vec F S512x256 .f32 := (win0_0.blk t0_0).view.read (Elt F) (m ((s : Thread nD τ).loc main_arg0))

def bOf (s : Dev nD) : Vec F S256x512 .f32 := (win0_1.blk t0_0).view.read (Elt F) (m ((s : Thread nD τ).loc main_arg1))

/- Device `s`'s partial product: its 256 columns of the left factor times its 256 rows of the right one. -/
def part (s : Dev nD) : Vec F S512x512 .bf16 := k0_pay1 (aOf m s) (bOf m s)

def recvOf (c : Dev nD) : Vec F S16x32x512 .bf16 := fun i => part m (i 0) (ValueIdx.ix2 (rowIx c (i 1)) (i 2))

def accStep (x : Vec F S32x512 .f32) (y : Vec F S32x512 .bf16) : Vec F S32x512 .f32 := addf x (extf .f32 y bitsLt_bf16_f32)

/- Device `c`'s rows of its own partial product plus, one at a time, the same rows of the peers 1, 2, … places ahead. -/
def accN (c : Dev nD) : ℕ → Vec F S32x512 .f32
  | 0 => extf .f32 (rowsOf c (part m c)) bitsLt_bf16_f32
  | j + 1 => accStep (accN c j) (rowsOf c (part m (fwd (j + 1) c)))

def outRows (c : Dev nD) : Vec F S32x512 .bf16 := truncf .bf16 (accN m c 15) bitsLt_bf16_f32

/- The full product: rows `32k … 32k+31` are device `k`'s finished sum. -/
def res : Vec F S512x512 .bf16 := fun i => outRows m (blkOf (i 0)) (ValueIdx.ix2 (inBlk (i 0)) (i 1))

theorem rowsOf_res (k : Fin 16) : rowsOf k (res m) = outRows m k := by
  funext i
  obtain ⟨p, q, rfl⟩ : ∃ (p : Fin 32) (q : Fin 512), i = ValueIdx.ix2 p q := ⟨i 0, i 1, ValueIdx.eq_ix2 i⟩
  show outRows m (blkOf (rowIx k p)) (ValueIdx.ix2 (inBlk (rowIx k p)) q) = outRows m k (ValueIdx.ix2 p q)
  rw [blkOf_rowIx, inBlk_rowIx]

end Cert.KernelIdeal.Dist

end
-- ==== Proof.Sched.lean ====
import proofs.«900887_g7700000000000888_dist_matmul_k_i_m512_n512_k256_v7x_i16_bf16_1_alg».proof.Proof.Contents
import Idealize.ShloMosaic.Lib.Pipeline.Launch
import Idealize.ShloMosaic.Lib.Pipeline.Kit
import Idealize.ShloMosaic.Lib.Tactic

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev barS : Sem sig := (SemArray.scalar (sig.barrier 0 rfl) : Sems sig S_).sem

def rsSendS (j : Fin 16) : DmaSem sig := ⟨3 + j.val, by have := j.isLt; show 3 + j.val < 67; omega⟩
def rsRecvS (j : Fin 16) : DmaSem sig := ⟨19 + j.val, by have := j.isLt; show 19 + j.val < 67; omega⟩
def agSendS (j : Fin 16) : DmaSem sig := ⟨35 + j.val, by have := j.isLt; show 35 + j.val < 67; omega⟩
def agRecvS (j : Fin 16) : DmaSem sig := ⟨51 + j.val, by have := j.isLt; show 51 + j.val < 67; omega⟩

abbrev barCell (c : Dev nD) : GSem nD τ sig := ((c : Thread nD τ), .reg barS)
abbrev rsSendCell (c : Dev nD) (j : Fin 16) : GSem nD τ sig := ((c : Thread nD τ), .dma (rsSendS j))
abbrev rsRecvCell (c : Dev nD) (j : Fin 16) : GSem nD τ sig := ((c : Thread nD τ), .dma (rsRecvS j))
abbrev agSendCell (c : Dev nD) (j : Fin 16) : GSem nD τ sig := ((c : Thread nD τ), .dma (agSendS j))
abbrev agRecvCell (c : Dev nD) (j : Fin 16) : GSem nD τ sig := ((c : Thread nD τ), .dma (agRecvS j))

def sIx (r : Fin 15) : Fin 16 := ⟨1 + r.val, by have := r.isLt; omega⟩

abbrev NR : ℕ := (rSlot (0 : Dev nD)).view.dmaCredit
abbrev NO : ℕ := (oRows (0 : Dev nD)).view.dmaCredit

def restShare : ℕ → PosShare TreeShare
  | 0 => fullShare
  | k + 1 => (restShare k).right

def pieceShare (r : Fin 15) : PosShare TreeShare := (restShare r.val).left

def barPay (x y : Dev nD) : sProp 𝕄 :=
  iprop((∃ f, (rSlot y).view.loc (x : Thread nD τ) ↦[(rSlot y).view.set]{fullShare} f)
    ∗ (∃ f, (oRows y).view.loc (x : Thread nD τ) ↦[(oRows y).view.set]{fullShare} f))

def rsRecvPay (y x : Dev nD) : sProp 𝕄 :=
  (rSlot x).view.loc (y : Thread nD τ) ↦[(rSlot x).view.set]{fullShare} (recvOf m y)

def rsSendPay (x : Dev nD) (r : Fin 15) : sProp 𝕄 :=
  (pSlice x r).view.loc (x : Thread nD τ) ↦[(pSlice x r).view.set]{fullShare} (part m x)

def agRecvPay (y x : Dev nD) : sProp 𝕄 :=
  (oRows x).view.loc (y : Thread nD τ) ↦[(oRows x).view.set]{fullShare} (res m)

def agSendPay (x : Dev nD) (r : Fin 15) : sProp 𝕄 :=
  (oRows x).view.loc (x : Thread nD τ) ↦[(oRows x).view.set]{pieceShare r} (res m)

def rOf (j : Fin 16) : Fin 15 := ⟨j.val - 1, by have := j.isLt; omega⟩

inductive CellKind
  | bar | rsSend (j : Fin 16) | rsRecv (j : Fin 16) | agSend (j : Fin 16) | agRecv (j : Fin 16) | other

def kindOf : SemLoc sig → CellKind
  | .reg s => if s = barS then .bar else .other
  | .dma q =>
    if h : 3 ≤ q.val ∧ q.val < 19 then .rsSend ⟨q.val - 3, by omega⟩
    else if h : 19 ≤ q.val ∧ q.val < 35 then .rsRecv ⟨q.val - 19, by omega⟩
    else if h : 35 ≤ q.val ∧ q.val < 51 then .agSend ⟨q.val - 35, by omega⟩
    else if h : 51 ≤ q.val ∧ q.val < 67 then .agRecv ⟨q.val - 51, by omega⟩
    else .other

def dutiesOf (c : Dev nD) : CellKind → Finset (Fin 16)
  | .bar => Finset.univ.erase 0
  | .rsSend j => if j = 0 then ∅ else {0}
  | .rsRecv j => if j = c then ∅ else {0}
  | .agSend j => if j = 0 then ∅ else {0}
  | .agRecv j => if j = c then ∅ else {0}
  | .other => ∅

def amountOf : CellKind → ℕ
  | .bar => 1
  | .rsSend _ => NR
  | .rsRecv _ => NR
  | .agSend _ => NO
  | .agRecv _ => NO
  | .other => 1

def payOf (c : Dev nD) : CellKind → Fin 16 → sProp 𝕄
  | .bar, d => barPay (bwd d.val c) c
  | .rsSend j, _ => rsSendPay m c (rOf j)
  | .rsRecv j, _ => rsRecvPay m c j
  | .agSend j, _ => agSendPay m c (rOf j)
  | .agRecv j, _ => agRecvPay m c j
  | .other, _ => iprop(emp)

theorem NR_pos : 0 < NR := View.dmaCredit_pos _ (by decide)
theorem NO_pos : 0 < NO := View.dmaCredit_pos _ (by decide)

/- The protocol: the barrier cell's one round has a duty per peer; each copy cell in use has one duty, its copy. -/
def sched : Rounds.Schedule (GSem nD τ sig) (Fin 16) 𝕄 where
  duties g r := if r = 0 ∧ g.1.2 = .tc then dutiesOf g.1.1 (kindOf g.2) else ∅
  unitless _ := False
  amount g _ _ := amountOf (kindOf g.2)
  payload g _ d := payOf m g.1.1 (kindOf g.2) d
  amount_pos g _ _ _ := by
    show 0 < amountOf (kindOf g.2)
    cases kindOf g.2 <;> first | exact Nat.one_pos | exact NR_pos | exact NO_pos

end Cert.KernelIdeal.Dist

end
-- ==== Proof.Inv.lean ====
import proofs.«900887_g7700000000000888_dist_matmul_k_i_m512_n512_k256_v7x_i16_bf16_1_alg».proof.Proof.Sched

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def csem (k : Fin 65) : SemLoc sig :=
  if k.val = 0 then .reg barS
  else if h : k.val < 17 then .dma (rsSendS ⟨k.val - 1, by omega⟩)
  else if h : k.val < 33 then .dma (rsRecvS ⟨k.val - 17, by omega⟩)
  else if h : k.val < 49 then .dma (agSendS ⟨k.val - 33, by omega⟩)
  else .dma (agRecvS ⟨k.val - 49, by have := k.isLt; omega⟩)
abbrev kcell (ck : Dev nD × Fin 65) : GSem nD τ sig := ((ck.1 : Thread nD τ), csem ck.2)

def osem (k : Fin 64) : SemLoc sig := csem ⟨k.val + 1, by have := k.isLt; omega⟩

def oweStep (c : Dev nD) (j : ℕ) : CellTallies nD τ sig Unit :=
  if j < 15 then tallyAt (barCell (fwd (1 + j) c)) () 1
  else if j < 30 then tallyAt (rsRecvCell (fwd (1 + (j - 15)) c) c) () NR
  else tallyAt (agRecvCell (fwd (1 + (j - 30)) c) c) () NO

def owedLast (c : Dev nD) : ℕ → CellTallies nD τ sig Unit
  | 0 => 0
  | n + 1 => owedLast c n + oweStep c (44 - n)

abbrev owedFrom (c : Dev nD) (k : ℕ) : CellTallies nD τ sig Unit := owedLast c (45 - k)
abbrev O₀ (c : Dev nD) : CellTallies nD τ sig Unit := owedFrom c 0

def L (g : GSem nD τ sig) : Finset Unit := if g.1.2 = .tc then {()} else ∅

def lv (g : GSem nD τ sig) (_ : Unit) : ℕ :=
  match kindOf g.2 with
  | .bar => 1
  | .rsRecv _ => 2
  | .agRecv _ => 3
  | _ => 0

/- Every cell's invariant and the start of its first round: persistent, shared by all the steps. -/
def records (K : Dev nD × Fin 65 → ℕ) : sProp 𝕄 :=
  iprop((bigSep Finset.univ fun ck : Dev nD × Fin 65 => cellInv ER (sched m) (K ck) (kcell ck))
    ∗ bigSep Finset.univ fun ck : Dev nD × Fin 65 => reached ER (kcell ck) 0)

def positions (c : Dev nD) : sProp 𝕄 := bigSep Finset.univ fun k : Fin 65 => atPos ER (kcell (c, k)) 0 ∅ 0

def payToks (c : Dev nD) (r : Fin 15) : sProp 𝕄 :=
  iprop(dutyTok ER (barCell (fwd (1 + r.val) c)) 0 (sIx r)
    ∗ dutyTok ER (rsSendCell c (sIx r)) 0 0 ∗ dutyTok ER (rsRecvCell (fwd (1 + r.val) c) c) 0 0
    ∗ dutyTok ER (agSendCell c (sIx r)) 0 0 ∗ dutyTok ER (agRecvCell (fwd (1 + r.val) c) c) 0 0)

def ghost (K : Dev nD × Fin 65 → ℕ) (c : Dev nD) : sProp 𝕄 :=
  iprop(records m K ∗ positions c ∗ bigSep Finset.univ fun r : Fin 15 => payToks c r)

def credits (c : Dev nD) : sProp 𝕄 :=
  iprop(cred (tallyAt (barCell c) () 15)
    ∗ bigSep Finset.univ fun r : Fin 15 =>
        iprop(cred (tallyAt (rsRecvCell c (fwd (1 + r.val) c)) () NR) ∗ cred (tallyAt (agRecvCell c (fwd (1 + r.val) c)) () NO)))

def start (c : Dev nD) : sProp 𝕄 := iprop((∃ K, ghost m K c) ∗ credits c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)

def Φ₁ (c : Dev nD) : sProp 𝕄 := iprop(scratch c ∗ bigSep Finset.univ fun k : Fin 64 => semVal (((c : Thread nD τ), osem k) : GSem nD τ sig) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aOf m c
    | ⟨1, _⟩ => bOf m c
    | ⟨2, _⟩ => res m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Dist

end
-- ==== Proof.Cells.lean ====
import proofs.«900887_g7700000000000888_dist_matmul_k_i_m512_n512_k256_v7x_i16_bf16_1_alg».proof.Proof.Inv

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def kBar : Fin 65 := 0
def kRsS (j : Fin 16) : Fin 65 := ⟨1 + j.val, by have := j.isLt; omega⟩
def kRsR (j : Fin 16) : Fin 65 := ⟨17 + j.val, by have := j.isLt; omega⟩
def kAgS (j : Fin 16) : Fin 65 := ⟨33 + j.val, by have := j.isLt; omega⟩
def kAgR (j : Fin 16) : Fin 65 := ⟨49 + j.val, by have := j.isLt; omega⟩

theorem csem_bar : csem kBar = (.reg barS : SemLoc sig) := by
  unfold csem kBar; exact if_pos rfl
theorem csem_rsS (j : Fin 16) : csem (kRsS j) = (.dma (rsSendS j) : SemLoc sig) := by
  have hj := j.isLt
  unfold csem kRsS
  rw [if_neg (by show ¬ (1 + j.val = 0); omega), dif_pos (by show 1 + j.val < 17; omega)]
  exact congrArg (fun x => SemLoc.dma (rsSendS x)) (Fin.ext (by show 1 + j.val - 1 = j.val; omega))
theorem csem_rsR (j : Fin 16) : csem (kRsR j) = (.dma (rsRecvS j) : SemLoc sig) := by
  have hj := j.isLt
  unfold csem kRsR
  rw [if_neg (by show ¬ (17 + j.val = 0); omega), dif_neg (by show ¬ (17 + j.val < 17); omega), dif_pos (by show 17 + j.val < 33; omega)]
  exact congrArg (fun x => SemLoc.dma (rsRecvS x)) (Fin.ext (by show 17 + j.val - 17 = j.val; omega))
theorem csem_agS (j : Fin 16) : csem (kAgS j) = (.dma (agSendS j) : SemLoc sig) := by
  have hj := j.isLt
  unfold csem kAgS
  rw [if_neg (by show ¬ (33 + j.val = 0); omega), dif_neg (by show ¬ (33 + j.val < 17); omega), dif_neg (by show ¬ (33 + j.val < 33); omega),
    dif_pos (by show 33 + j.val < 49; omega)]
  exact congrArg (fun x => SemLoc.dma (agSendS x)) (Fin.ext (by show 33 + j.val - 33 = j.val; omega))
theorem csem_agR (j : Fin 16) : csem (kAgR j) = (.dma (agRecvS j) : SemLoc sig) := by
  have hj := j.isLt
  unfold csem kAgR
  rw [if_neg (by show ¬ (49 + j.val = 0); omega), dif_neg (by show ¬ (49 + j.val < 17); omega), dif_neg (by show ¬ (49 + j.val < 33); omega),
    dif_neg (by show ¬ (49 + j.val < 49); omega)]
  exact congrArg (fun x => SemLoc.dma (agRecvS x)) (Fin.ext (by show 49 + j.val - 49 = j.val; omega))

theorem kcell_bar (c : Dev nD) : kcell (c, kBar) = barCell c := by show ((c : Thread nD τ), csem kBar) = _; rw [csem_bar]
theorem kcell_rsS (c : Dev nD) (j : Fin 16) : kcell (c, kRsS j) = rsSendCell c j := by show ((c : Thread nD τ), csem (kRsS j)) = _; rw [csem_rsS]
theorem kcell_rsR (c : Dev nD) (j : Fin 16) : kcell (c, kRsR j) = rsRecvCell c j := by show ((c : Thread nD τ), csem (kRsR j)) = _; rw [csem_rsR]
theorem kcell_agS (c : Dev nD) (j : Fin 16) : kcell (c, kAgS j) = agSendCell c j := by show ((c : Thread nD τ), csem (kAgS j)) = _; rw [csem_agS]
theorem kcell_agR (c : Dev nD) (j : Fin 16) : kcell (c, kAgR j) = agRecvCell c j := by show ((c : Thread nD τ), csem (kAgR j)) = _; rw [csem_agR]

instance records_persistent (K : Dev nD × Fin 65 → ℕ) : BI.Persistent (records m K) := by unfold records; infer_instance

theorem inv_at (K : Dev nD × Fin 65 → ℕ) (ck : Dev nD × Fin 65) : records m K ⊢ cellInv ER (sched m) (K ck) (kcell ck) := by
  unfold records
  iintro ⟨#HI, -⟩
  iapply (show (bigSep Finset.univ fun ck : Dev nD × Fin 65 => (cellInv ER (sched m) (K ck) (kcell ck) : sProp 𝕄)) ⊢ cellInv ER (sched m) (K ck) (kcell ck)
    from bigSep_elim (Finset.mem_univ ck))
  iexact HI
theorem reached_at (K : Dev nD × Fin 65 → ℕ) (ck : Dev nD × Fin 65) : records m K ⊢ (reached ER (kcell ck) 0 : sProp 𝕄) := by
  unfold records
  iintro ⟨-, #HR⟩
  iapply (show (bigSep Finset.univ fun ck : Dev nD × Fin 65 => (reached ER (kcell ck) 0 : sProp 𝕄)) ⊢ reached ER (kcell ck) 0
    from bigSep_elim (Finset.mem_univ ck))
  iexact HR

end Cert.KernelIdeal.Dist

end
-- ==== Proof.Tables.lean ====
import proofs.«900887_g7700000000000888_dist_matmul_k_i_m512_n512_k256_v7x_i16_bf16_1_alg».proof.Proof.Sched

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sIx_ne_zero (r : Fin 15) : sIx r ≠ 0 := fun h =>
  absurd (congrArg Fin.val h) (by show 1 + r.val ≠ 0; omega)

theorem sIx_injective : Function.Injective sIx := fun a b h =>
  Fin.ext (by have := congrArg Fin.val h; change 1 + a.val = 1 + b.val at this; omega)

theorem rOf_sIx (r : Fin 15) : rOf (sIx r) = r := Fin.ext (by show 1 + r.val - 1 = r.val; omega)

theorem erase_zero_eq_map : (Finset.univ.erase (0 : Fin 16)) = Finset.univ.map ⟨sIx, sIx_injective⟩ := by
  ext j
  rw [Finset.mem_erase, Finset.mem_map]
  constructor
  · rintro ⟨hj, -⟩
    have hlt := j.isLt
    have hne : j.val ≠ 0 := fun e => hj (Fin.ext e)
    exact ⟨⟨j.val - 1, by omega⟩, Finset.mem_univ _, Fin.ext (by show 1 + (j.val - 1) = j.val; omega)⟩
  · rintro ⟨r, -, rfl⟩
    exact ⟨sIx_ne_zero r, Finset.mem_univ _⟩

theorem kindOf_bar : kindOf (.reg barS) = .bar := by
  show (if barS = barS then CellKind.bar else CellKind.other) = CellKind.bar
  exact if_pos rfl

theorem kindOf_dma_of_rsSend (q : DmaSem sig) (h : 3 ≤ q.val ∧ q.val < 19) :
    kindOf (.dma q) = .rsSend ⟨q.val - 3, by omega⟩ := by
  unfold kindOf
  exact dif_pos h

theorem kindOf_dma_of_rsRecv (q : DmaSem sig) (h : 19 ≤ q.val ∧ q.val < 35) :
    kindOf (.dma q) = .rsRecv ⟨q.val - 19, by omega⟩ := by
  unfold kindOf
  have h1 : ¬ (3 ≤ q.val ∧ q.val < 19) := by omega
  exact (dif_neg h1).trans (dif_pos h)

theorem kindOf_dma_of_agSend (q : DmaSem sig) (h : 35 ≤ q.val ∧ q.val < 51) :
    kindOf (.dma q) = .agSend ⟨q.val - 35, by omega⟩ := by
  unfold kindOf
  have h1 : ¬ (3 ≤ q.val ∧ q.val < 19) := by omega
  have h2 : ¬ (19 ≤ q.val ∧ q.val < 35) := by omega
  exact (dif_neg h1).trans ((dif_neg h2).trans (dif_pos h))

theorem kindOf_dma_of_agRecv (q : DmaSem sig) (h : 51 ≤ q.val ∧ q.val < 67) :
    kindOf (.dma q) = .agRecv ⟨q.val - 51, by omega⟩ := by
  unfold kindOf
  have h1 : ¬ (3 ≤ q.val ∧ q.val < 19) := by omega
  have h2 : ¬ (19 ≤ q.val ∧ q.val < 35) := by omega
  have h3 : ¬ (35 ≤ q.val ∧ q.val < 51) := by omega
  exact (dif_neg h1).trans ((dif_neg h2).trans ((dif_neg h3).trans (dif_pos h)))

theorem kindOf_rsSend (j : Fin 16) : kindOf (.dma (rsSendS j)) = .rsSend j := by
  have hj := j.isLt
  have h : 3 ≤ (rsSendS j).val ∧ (rsSendS j).val < 19 := by show 3 ≤ 3 + j.val ∧ 3 + j.val < 19; omega
  rw [kindOf_dma_of_rsSend _ h]
  exact congrArg CellKind.rsSend (Fin.ext (by show 3 + j.val - 3 = j.val; omega))

theorem kindOf_rsRecv (j : Fin 16) : kindOf (.dma (rsRecvS j)) = .rsRecv j := by
  have hj := j.isLt
  have h : 19 ≤ (rsRecvS j).val ∧ (rsRecvS j).val < 35 := by show 19 ≤ 19 + j.val ∧ 19 + j.val < 35; omega
  rw [kindOf_dma_of_rsRecv _ h]
  exact congrArg CellKind.rsRecv (Fin.ext (by show 19 + j.val - 19 = j.val; omega))

theorem kindOf_agSend (j : Fin 16) : kindOf (.dma (agSendS j)) = .agSend j := by
  have hj := j.isLt
  have h : 35 ≤ (agSendS j).val ∧ (agSendS j).val < 51 := by show 35 ≤ 35 + j.val ∧ 35 + j.val < 51; omega
  rw [kindOf_dma_of_agSend _ h]
  exact congrArg CellKind.agSend (Fin.ext (by show 35 + j.val - 35 = j.val; omega))

theorem kindOf_agRecv (j : Fin 16) : kindOf (.dma (agRecvS j)) = .agRecv j := by
  have hj := j.isLt
  have h : 51 ≤ (agRecvS j).val ∧ (agRecvS j).val < 67 := by show 51 ≤ 51 + j.val ∧ 51 + j.val < 67; omega
  rw [kindOf_dma_of_agRecv _ h]
  exact congrArg CellKind.agRecv (Fin.ext (by show 51 + j.val - 51 = j.val; omega))

theorem duties_zero (c : Dev nD) (s : SemLoc sig) :
    (sched m).duties ((c : Thread nD τ), s) 0 = dutiesOf c (kindOf s) := by
  dsimp only [sched]
  exact if_pos ⟨rfl, rfl⟩

theorem duties_bar (c : Dev nD) : (sched m).duties (barCell c) 0 = Finset.univ.erase 0 := by
  rw [duties_zero, kindOf_bar]; rfl

theorem duties_rsSend (c : Dev nD) (r : Fin 15) : (sched m).duties (rsSendCell c (sIx r)) 0 = {0} := by
  rw [duties_zero, kindOf_rsSend]; exact if_neg (sIx_ne_zero r)

theorem duties_agSend (c : Dev nD) (r : Fin 15) : (sched m).duties (agSendCell c (sIx r)) 0 = {0} := by
  rw [duties_zero, kindOf_agSend]; exact if_neg (sIx_ne_zero r)

theorem duties_rsRecv (c x : Dev nD) (h : x ≠ c) : (sched m).duties (rsRecvCell c x) 0 = {0} := by
  rw [duties_zero, kindOf_rsRecv]; exact if_neg h

theorem duties_agRecv (c x : Dev nD) (h : x ≠ c) : (sched m).duties (agRecvCell c x) 0 = {0} := by
  rw [duties_zero, kindOf_agRecv]; exact if_neg h

theorem duties_rsRecv_peer (c : Dev nD) (r : Fin 15) : (sched m).duties (rsRecvCell (fwd (1 + r.val) c) c) 0 = {0} :=
  duties_rsRecv m _ c (fwd_ne_self r c).symm

theorem duties_agRecv_peer (c : Dev nD) (r : Fin 15) : (sched m).duties (agRecvCell (fwd (1 + r.val) c) c) 0 = {0} :=
  duties_agRecv m _ c (fwd_ne_self r c).symm

theorem duties_later (g : GSem nD τ sig) (r : ℕ) (hr : 1 ≤ r) : (sched m).duties g r = ∅ := by
  dsimp only [sched]
  exact if_neg fun h => absurd h.1 (by omega)

theorem duties_unused_rsSend (c : Dev nD) (r : ℕ) : (sched m).duties (rsSendCell c 0) r = ∅ := by
  rcases Nat.eq_zero_or_pos r with rfl | hr
  · rw [duties_zero, kindOf_rsSend]
    show (if (0 : Fin 16) = 0 then (∅ : Finset (Fin 16)) else {0}) = ∅
    exact if_pos rfl
  · exact duties_later m _ r hr

theorem duties_unused_agSend (c : Dev nD) (r : ℕ) : (sched m).duties (agSendCell c 0) r = ∅ := by
  rcases Nat.eq_zero_or_pos r with rfl | hr
  · rw [duties_zero, kindOf_agSend]
    show (if (0 : Fin 16) = 0 then (∅ : Finset (Fin 16)) else {0}) = ∅
    exact if_pos rfl
  · exact duties_later m _ r hr

theorem duties_unused_rsRecv (c : Dev nD) (r : ℕ) : (sched m).duties (rsRecvCell c c) r = ∅ := by
  rcases Nat.eq_zero_or_pos r with rfl | hr
  · rw [duties_zero, kindOf_rsRecv]; exact if_pos rfl
  · exact duties_later m _ r hr

theorem duties_unused_agRecv (c : Dev nD) (r : ℕ) : (sched m).duties (agRecvCell c c) r = ∅ := by
  rcases Nat.eq_zero_or_pos r with rfl | hr
  · rw [duties_zero, kindOf_agRecv]; exact if_pos rfl
  · exact duties_later m _ r hr

theorem amount_bar (c : Dev nD) (d : Fin 16) : (sched m).amount (barCell c) 0 d = 1 := by
  show amountOf (kindOf (.reg barS)) = 1
  rw [kindOf_bar]; rfl

theorem amount_rsSend (c : Dev nD) (j : Fin 16) (d : Fin 16) : (sched m).amount (rsSendCell c j) 0 d = NR := by
  show amountOf (kindOf (.dma (rsSendS j))) = NR
  rw [kindOf_rsSend]; rfl

theorem amount_rsRecv (y x : Dev nD) (d : Fin 16) : (sched m).amount (rsRecvCell y x) 0 d = NR := by
  show amountOf (kindOf (.dma (rsRecvS x))) = NR
  rw [kindOf_rsRecv]; rfl

theorem amount_agSend (c : Dev nD) (j : Fin 16) (d : Fin 16) : (sched m).amount (agSendCell c j) 0 d = NO := by
  show amountOf (kindOf (.dma (agSendS j))) = NO
  rw [kindOf_agSend]; rfl

theorem amount_agRecv (y x : Dev nD) (d : Fin 16) : (sched m).amount (agRecvCell y x) 0 d = NO := by
  show amountOf (kindOf (.dma (agRecvS x))) = NO
  rw [kindOf_agRecv]; rfl

theorem expect_bar (c : Dev nD) : (sched m).expect (barCell c) 0 = 15 := by
  have hcard : (Finset.univ.erase (0 : Fin 16)).card = 15 := by
    rw [Finset.card_erase_of_mem (Finset.mem_univ _), Finset.card_univ, Fintype.card_fin]
  unfold Schedule.expect Schedule.amountOf
  rw [duties_bar, Finset.sum_congr rfl fun d _ => amount_bar m c d, Finset.sum_const, smul_eq_mul, Nat.mul_one, hcard]

theorem expect_rsSend (c : Dev nD) (r : Fin 15) : (sched m).expect (rsSendCell c (sIx r)) 0 = NR := by
  unfold Schedule.expect Schedule.amountOf; rw [duties_rsSend, Finset.sum_singleton, amount_rsSend]

theorem expect_rsRecv (y x : Dev nD) (h : x ≠ y) : (sched m).expect (rsRecvCell y x) 0 = NR := by
  unfold Schedule.expect Schedule.amountOf; rw [duties_rsRecv m y x h, Finset.sum_singleton, amount_rsRecv]

theorem expect_agSend (c : Dev nD) (r : Fin 15) : (sched m).expect (agSendCell c (sIx r)) 0 = NO := by
  unfold Schedule.expect Schedule.amountOf; rw [duties_agSend, Finset.sum_singleton, amount_agSend]

theorem expect_agRecv (y x : Dev nD) (h : x ≠ y) : (sched m).expect (agRecvCell y x) 0 = NO := by
  unfold Schedule.expect Schedule.amountOf; rw [duties_agRecv m y x h, Finset.sum_singleton, amount_agRecv]

theorem expect_rsRecv_at (c : Dev nD) (r : Fin 15) : (sched m).expect (rsRecvCell c (fwd (1 + r.val) c)) 0 = NR :=
  expect_rsRecv m c _ (fwd_ne_self r c)

theorem expect_agRecv_at (c : Dev nD) (r : Fin 15) : (sched m).expect (agRecvCell c (fwd (1 + r.val) c)) 0 = NO :=
  expect_agRecv m c _ (fwd_ne_self r c)

theorem payload_bar (y : Dev nD) (r : Fin 15) :
    (sched m).payload (barCell y) 0 (sIx r) = barPay (bwd (1 + r.val) y) y := by
  show payOf m y (kindOf (.reg barS)) (sIx r) = _
  rw [kindOf_bar]; rfl

theorem payload_bar_fwd (c : Dev nD) (r : Fin 15) :
    (sched m).payload (barCell (fwd (1 + r.val) c)) 0 (sIx r) = barPay c (fwd (1 + r.val) c) := by
  rw [payload_bar, bwd_fwd]

theorem payload_rsSend (c : Dev nD) (r : Fin 15) (d : Fin 16) :
    (sched m).payload (rsSendCell c (sIx r)) 0 d = rsSendPay m c r := by
  show payOf m c (kindOf (.dma (rsSendS (sIx r)))) d = _
  rw [kindOf_rsSend]
  show rsSendPay m c (rOf (sIx r)) = _
  rw [rOf_sIx]

theorem payload_rsRecv (y x : Dev nD) (d : Fin 16) :
    (sched m).payload (rsRecvCell y x) 0 d = rsRecvPay m y x := by
  show payOf m y (kindOf (.dma (rsRecvS x))) d = _
  rw [kindOf_rsRecv]; rfl

theorem payload_agSend (c : Dev nD) (r : Fin 15) (d : Fin 16) :
    (sched m).payload (agSendCell c (sIx r)) 0 d = agSendPay m c r := by
  show payOf m c (kindOf (.dma (agSendS (sIx r)))) d = _
  rw [kindOf_agSend]
  show agSendPay m c (rOf (sIx r)) = _
  rw [rOf_sIx]

theorem payload_agRecv (y x : Dev nD) (d : Fin 16) :
    (sched m).payload (agRecvCell y x) 0 d = agRecvPay m y x := by
  show payOf m y (kindOf (.dma (agRecvS x))) d = _
  rw [kindOf_agRecv]; rfl

theorem rest_bar (c : Dev nD) :
    bigSep ((sched m).duties (barCell c) 0 \ ∅) (fun d => (sched m).payload (barCell c) 0 d)
      = bigSep Finset.univ (fun r : Fin 15 => barPay (bwd (1 + r.val) c) c) := by
  rw [Finset.sdiff_empty, duties_bar, erase_zero_eq_map, bigSep_map]
  exact bigSep_congr fun r _ => payload_bar m c r

theorem bwd_rev (c : Dev nD) (r : Fin 15) : bwd (1 + (Fin.rev r).val) c = fwd (1 + r.val) c := by
  have hc : c.val < 16 := c.isLt
  have hr : r.val < 15 := r.isLt
  apply Fin.ext
  simp only [bwd_val, fwd_val, Fin.val_rev]
  omega

theorem rest_bar_fwd (c : Dev nD) :
    bigSep ((sched m).duties (barCell c) 0 \ ∅) (fun d => (sched m).payload (barCell c) 0 d)
      = bigSep Finset.univ (fun r : Fin 15 => barPay (fwd (1 + r.val) c) c) := by
  rw [rest_bar]
  have h := bigSep_map (s := (Finset.univ : Finset (Fin 15))) (Fin.revPerm (n := 15)).toEmbedding
    (Φ := fun r' : Fin 15 => (barPay (bwd (1 + r'.val) c) c : sProp 𝕄))
  rw [Finset.map_univ_equiv] at h
  refine h.trans (bigSep_congr fun r _ => ?_)
  show barPay (bwd (1 + (Fin.rev r).val) c) c = barPay (fwd (1 + r.val) c) c
  rw [bwd_rev]

theorem rest_rsSend (c : Dev nD) (r : Fin 15) :
    bigSep ((sched m).duties (rsSendCell c (sIx r)) 0 \ ∅) (fun d => (sched m).payload (rsSendCell c (sIx r)) 0 d)
      = rsSendPay m c r := by
  rw [Finset.sdiff_empty, duties_rsSend, bigSep_singleton, payload_rsSend]

theorem rest_rsRecv (y x : Dev nD) (h : x ≠ y) :
    bigSep ((sched m).duties (rsRecvCell y x) 0 \ ∅) (fun d => (sched m).payload (rsRecvCell y x) 0 d)
      = rsRecvPay m y x := by
  rw [Finset.sdiff_empty, duties_rsRecv m y x h, bigSep_singleton, payload_rsRecv]

theorem rest_agSend (c : Dev nD) (r : Fin 15) :
    bigSep ((sched m).duties (agSendCell c (sIx r)) 0 \ ∅) (fun d => (sched m).payload (agSendCell c (sIx r)) 0 d)
      = agSendPay m c r := by
  rw [Finset.sdiff_empty, duties_agSend, bigSep_singleton, payload_agSend]

theorem rest_agRecv (y x : Dev nD) (h : x ≠ y) :
    bigSep ((sched m).duties (agRecvCell y x) 0 \ ∅) (fun d => (sched m).payload (agRecvCell y x) 0 d)
      = agRecvPay m y x := by
  rw [Finset.sdiff_empty, duties_agRecv m y x h, bigSep_singleton, payload_agRecv]

theorem rest_rsRecv_at (c : Dev nD) (r : Fin 15) :
    bigSep ((sched m).duties (rsRecvCell c (fwd (1 + r.val) c)) 0 \ ∅) (fun d => (sched m).payload (rsRecvCell c (fwd (1 + r.val) c)) 0 d)
      = rsRecvPay m c (fwd (1 + r.val) c) :=
  rest_rsRecv m c _ (fwd_ne_self r c)

theorem rest_agRecv_at (c : Dev nD) (r : Fin 15) :
    bigSep ((sched m).duties (agRecvCell c (fwd (1 + r.val) c)) 0 \ ∅) (fun d => (sched m).payload (agRecvCell c (fwd (1 + r.val) c)) 0 d)
      = agRecvPay m c (fwd (1 + r.val) c) :=
  rest_agRecv m c _ (fwd_ne_self r c)

instance sched_payload_storable (g : GSem nD τ sig) (r : ℕ) (d : Fin 16) :
    BI.Storable (upEmb : UEmb _ 𝕄) ((sched m).payload g r d) := by
  show BI.Storable upEmb (payOf m g.1.1 (kindOf g.2) d)
  unfold payOf barPay rsSendPay rsRecvPay agSendPay agRecvPay
  (repeat' split) <;> infer_instance

end Cert.KernelIdeal.Dist

end
-- ==== Proof.Views.lean ====
import proofs.«900887_g7700000000000888_dist_matmul_k_i_m512_n512_k256_v7x_i16_bf16_1_alg».proof.Proof.Contents
import Idealize.ShloMosaic.Lib.Pipeline.Value
import Idealize.ShloMosaic.Lib.ValueLayout

noncomputable section

namespace Cert.KernelIdeal.Dist

open Cert.KernelIdeal Cert.KernelIdeal.Gen
open Idealize.ShloMosaic Idealize.ShloMosaic.TcCoe Idealize.SL.Sem
open Idealize.ShloMosaic.ValueIdx

variable {F : FTy → Type} [FloatOps F]

theorem pay2_eq (v : Vec F S32x512 .bf16) : k0_pay2 v = extf .f32 v bitsLt_bf16_f32 := shapeCast_self _ _

theorem pay3_eq (x : Vec F S32x512 .f32) (y : Vec F S1x32x512 .bf16) :
    k0_pay3 x y = accStep x (shapeCast S32x512 y shapeCasts_S1x32x512_S32x512) := shapeCast_self _ _
theorem pay4_eq (x : Vec F S32x512 .f32) (y : Vec F S1x32x512 .bf16) :
    k0_pay4 x y = accStep x (shapeCast S32x512 y shapeCasts_S1x32x512_S32x512) := shapeCast_self _ _
theorem pay7_eq (x : Vec F S32x512 .f32) (y : Vec F S1x32x512 .bf16) :
    k0_pay7 x y = accStep x (shapeCast S32x512 y shapeCasts_S1x32x512_S32x512) := shapeCast_self _ _
theorem pay8_eq (x : Vec F S32x512 .f32) (y : Vec F S1x32x512 .bf16) :
    k0_pay8 x y = accStep x (shapeCast S32x512 y shapeCasts_S1x32x512_S32x512) := shapeCast_self _ _
theorem pay9_eq (x : Vec F S32x512 .f32) (y : Vec F S1x32x512 .bf16) :
    k0_pay9 x y = accStep x (shapeCast S32x512 y shapeCasts_S1x32x512_S32x512) := shapeCast_self _ _
theorem pay10_eq (x : Vec F S32x512 .f32) (y : Vec F S1x32x512 .bf16) :
    k0_pay10 x y = accStep x (shapeCast S32x512 y shapeCasts_S1x32x512_S32x512) := shapeCast_self _ _
theorem pay11_eq (x : Vec F S32x512 .f32) (y : Vec F S1x32x512 .bf16) :
    k0_pay11 x y = accStep x (shapeCast S32x512 y shapeCasts_S1x32x512_S32x512) := shapeCast_self _ _
theorem pay12_eq (x : Vec F S32x512 .f32) (y : Vec F S1x32x512 .bf16) :
    k0_pay12 x y = accStep x (shapeCast S32x512 y shapeCasts_S1x32x512_S32x512) := shapeCast_self _ _
theorem pay13_eq (x : Vec F S32x512 .f32) (y : Vec F S1x32x512 .bf16) :
    k0_pay13 x y = accStep x (shapeCast S32x512 y shapeCasts_S1x32x512_S32x512) := shapeCast_self _ _
theorem pay14_eq (x : Vec F S32x512 .f32) (y : Vec F S1x32x512 .bf16) :
    k0_pay14 x y = accStep x (shapeCast S32x512 y shapeCasts_S1x32x512_S32x512) := shapeCast_self _ _
theorem pay15_eq (x : Vec F S32x512 .f32) (y : Vec F S1x32x512 .bf16) :
    k0_pay15 x y = accStep x (shapeCast S32x512 y shapeCasts_S1x32x512_S32x512) := shapeCast_self _ _
theorem pay16_eq (x : Vec F S32x512 .f32) (y : Vec F S1x32x512 .bf16) :
    k0_pay16 x y = accStep x (shapeCast S32x512 y shapeCasts_S1x32x512_S32x512) := shapeCast_self _ _
theorem pay19_eq (x : Vec F S32x512 .f32) (y : Vec F S1x32x512 .bf16) :
    k0_pay19 x y = accStep x (shapeCast S32x512 y shapeCasts_S1x32x512_S32x512) := shapeCast_self _ _

theorem pay5_eq (x : Vec F S32x512 .f32) (y : Vec F S1x32x512 .bf16) :
    k0_pay5 x y = accStep x (shapeCast S32x512 y shapeCasts_S1x32x512_S32x512) := rfl
theorem pay17_eq (x : Vec F S32x512 .f32) (y : Vec F S1x32x512 .bf16) :
    k0_pay17 x y = accStep x (shapeCast S32x512 y shapeCasts_S1x32x512_S32x512) := rfl

theorem pay6_eq (v : FVec F S32x512 .f32) : k0_pay6 v = v := shapeCast_self _ _
theorem pay18_eq (v : FVec F S32x512 .f32) : k0_pay18 v = v := shapeCast_self _ _

theorem off00 : (![0, 0] : Fin 2 → ℕ) = fun _ => 0 := by
  funext a; match a with | ⟨0, _⟩ => rfl | ⟨1, _⟩ => rfl

theorem unit_rows_emb (k : Fin 16) (inb : ∀ a, (![32 * k.val, 0] : Fin 2 → ℕ) a + S32x512.size a ≤ S512x512.size a)
    (j : S32x512.Idx) :
    (Rect.unit (s := S512x512) ![32 * k.val, 0] S32x512.size inb).emb j = ix2 (rowIx k (j 0)) (j 1) := by
  funext a
  apply Fin.ext
  match a with
  | ⟨0, _⟩ => show 32 * k.val + 1 * (j 0).val = 32 * k.val + (j 0).val; omega
  | ⟨1, _⟩ => show 0 + 1 * (j 1).val = (j 1).val; omega

theorem mem_rows_unit {off : Fin 2 → ℕ} {k : ℕ} (h : off = ![32 * k, 0])
    (inb : ∀ a, off a + S32x512.size a ≤ S512x512.size a) (i : S512x512.Idx) :
    i ∈ (Rect.unit (s := S512x512) off S32x512.size inb).set ↔ (i 0).val / 32 = k := by
  subst h
  rw [Rect.mem_set_unit]
  have h1 : (i 1).val < 512 := (i 1).isLt
  constructor
  · intro H
    have h0 := H (0 : Fin 2)
    change 32 * k ≤ (i 0).val ∧ (i 0).val < 32 * k + 32 at h0
    omega
  · intro H a
    match a with
    | ⟨0, _⟩ => change 32 * k ≤ (i 0).val ∧ (i 0).val < 32 * k + 32; omega
    | ⟨1, _⟩ => change 0 ≤ (i 1).val ∧ (i 1).val < 0 + 512; omega

theorem mem_slot_unit {off : Fin 3 → ℕ} {k : ℕ} (h : off = ![k, 0, 0])
    (inb : ∀ a, off a + S1x32x512.size a ≤ S16x32x512.size a) (i : S16x32x512.Idx) :
    i ∈ (Rect.unit (s := S16x32x512) off S1x32x512.size inb).set ↔ (i 0).val = k := by
  subst h
  rw [Rect.mem_set_unit]
  have h1 : (i 1).val < 32 := (i 1).isLt
  have h2 : (i 2).val < 512 := (i 2).isLt
  constructor
  · intro H
    have h0 := H (0 : Fin 3)
    change k ≤ (i 0).val ∧ (i 0).val < k + 1 at h0
    omega
  · intro H a
    match a with
    | ⟨0, _⟩ => change k ≤ (i 0).val ∧ (i 0).val < k + 1; omega
    | ⟨1, _⟩ => change 0 ≤ (i 1).val ∧ (i 1).val < 0 + 32; omega
    | ⟨2, _⟩ => change 0 ≤ (i 2).val ∧ (i 2).val < 0 + 512; omega

theorem unit_slot_emb (x : Fin 16) (inb : ∀ a, (![x.val, 0, 0] : Fin 3 → ℕ) a + S1x32x512.size a ≤ S16x32x512.size a)
    (a : Fin 32) (b : Fin 512) :
    (Rect.unit (s := S16x32x512) ![x.val, 0, 0] S1x32x512.size inb).emb (ix3 (0 : Fin 1) a b) = ix3 x a b := by
  funext d
  apply Fin.ext
  match d with
  | ⟨0, _⟩ => show x.val + 1 * 0 = x.val; omega
  | ⟨1, _⟩ => show 0 + 1 * a.val = a.val; omega
  | ⟨2, _⟩ => show 0 + 1 * b.val = b.val; omega

theorem set_access_own_rows (c : Dev nD) :
    ((oM.access (Rect.unit (s := S512x512) (k0_off4 c) S32x512.size (k0_off4_inb c))).set : Finset S512x512.Idx)
      = (oRows c).view.set :=
  (View.set_slice_whole cc0_stg2_0 _).trans
    ((congrArg (fun R : Rect S512x512 => R.set)
        (Rect.unit_congr ((k0_off4_eq c).trans (k0_off8_eq c).symm) (k0_off4_inb c) (k0_off8_inb c))).trans
      (View.set_slice_whole cc0_stg2_0 _).symm)

theorem set_rSlot (x : Dev nD) :
    ((rSlot x).view.set : Finset S16x32x512.Idx)
      = (Rect.unit (s := S16x32x512) (k0_off2 x) S1x32x512.size (k0_off2_inb x)).set :=
  (View.set_reshape _ _).trans (View.set_slice_whole cc0_scratch1 _)

theorem set_oRows (x : Dev nD) :
    ((oRows x).view.set : Finset S512x512.Idx)
      = (Rect.unit (s := S512x512) (k0_off8 x) S32x512.size (k0_off8_inb x)).set :=
  View.set_slice_whole cc0_stg2_0 _

theorem set_pSlice (c : Dev nD) (r : Fin 15) :
    ((pSlice c r).view.set : Finset S512x512.Idx)
      = (Rect.unit (s := S512x512) (k0_off3 c (BitVec.ofNat 32 (1 + r.val))) S32x512.size (k0_off3_inb c r)).set :=
  View.set_slice_whole cc0_scratch0 _

theorem set_pOwn (c : Dev nD) :
    ((pOwn c).view.set : Finset S512x512.Idx)
      = (Rect.unit (s := S512x512) (k0_off4 c) S32x512.size (k0_off4_inb c)).set :=
  View.set_slice_whole cc0_scratch0 _

theorem mem_rSlot (x : Dev nD) (i : S16x32x512.Idx) : i ∈ (rSlot x).view.set ↔ (i 0).val = x.val := by
  rw [set_rSlot]; exact mem_slot_unit (k0_off2_eq x) _ i

theorem mem_oRows (x : Dev nD) (i : S512x512.Idx) : i ∈ (oRows x).view.set ↔ (i 0).val / 32 = x.val := by
  rw [set_oRows]; exact mem_rows_unit (k0_off8_eq x) _ i

theorem mem_pSlice (c : Dev nD) (r : Fin 15) (i : S512x512.Idx) :
    i ∈ (pSlice c r).view.set ↔ (i 0).val / 32 = (fwd ((1 : ℕ) + r.val) c).val := by
  rw [set_pSlice]; exact mem_rows_unit (off3_eq c r) _ i

theorem mem_pOwn (c : Dev nD) (i : S512x512.Idx) : i ∈ (pOwn c).view.set ↔ (i 0).val / 32 = c.val := by
  rw [set_pOwn]; exact mem_rows_unit (k0_off4_eq c) _ i

theorem setOn_whole_eq (b : Ref sig .tc) (M : Finset b.ty.shape.Idx) :
    (View.whole b : View sig .tc _ _ _).setOn M = M := Finset.map_refl

theorem setOn_slot_load (c : Dev nD) (r : Fin 15) :
    (rM.view.setOn (Rect.unit (s := S16x32x512) (k0_off7 c (BitVec.ofNat 32 (1 + r.val))) S1x32x512.size
        (k0_off7_inb c r)).toLoadRect.set : Finset S16x32x512.Idx)
      = (rSlot (fwd ((1 : ℕ) + r.val) c)).view.set :=
  (setOn_whole_eq cc0_scratch1 _).trans
    ((congrArg (fun R : Rect S16x32x512 => R.set)
        (Rect.unit_congr ((off7_eq c r).trans (k0_off2_eq (fwd ((1 : ℕ) + r.val) c)).symm) (k0_off7_inb c r)
          (k0_off2_inb (fwd ((1 : ℕ) + r.val) c)))).trans
      (set_rSlot (fwd ((1 : ℕ) + r.val) c)).symm)

theorem sub_slot (c : Dev nD) (r : Fin 15) :
    (rM.view.setOn (Rect.unit (s := S16x32x512) (k0_off7 c (BitVec.ofNat 32 (1 + r.val))) S1x32x512.size
        (k0_off7_inb c r)).toLoadRect.set : Finset S16x32x512.Idx)
      ⊆ (rSlot (fwd ((1 : ℕ) + r.val) c)).view.set :=
  Finset.subset_of_eq (setOn_slot_load c r)

theorem setOn_pOwn_load (c : Dev nD) :
    (pM.view.setOn (Rect.unit (s := S512x512) (k0_off4 c) S32x512.size (k0_off4_inb c)).toLoadRect.set :
        Finset S512x512.Idx) = (pOwn c).view.set :=
  (setOn_whole_eq cc0_scratch0 _).trans (set_pOwn c).symm

theorem sub_pOwn (c : Dev nD) :
    (pM.view.setOn (Rect.unit (s := S512x512) (k0_off4 c) S32x512.size (k0_off4_inb c)).toLoadRect.set :
        Finset S512x512.Idx) ⊆ (pOwn c).view.set :=
  Finset.subset_of_eq (setOn_pOwn_load c)

theorem setOn_oRows_load (c : Dev nD) :
    (oM.view.setOn (Rect.unit (s := S512x512) (k0_off4 c) S32x512.size (k0_off4_inb c)).toLoadRect.set :
        Finset S512x512.Idx) = (oRows c).view.set :=
  (setOn_whole_eq cc0_stg2_0 _).trans
    ((congrArg (fun R : Rect S512x512 => R.set)
        (Rect.unit_congr ((k0_off4_eq c).trans (k0_off8_eq c).symm) (k0_off4_inb c) (k0_off8_inb c))).trans
      (set_oRows c).symm)

theorem sub_oRows_load (c : Dev nD) :
    (oM.view.setOn (Rect.unit (s := S512x512) (k0_off4 c) S32x512.size (k0_off4_inb c)).toLoadRect.set :
        Finset S512x512.Idx) ⊆ (oRows c).view.set :=
  Finset.subset_of_eq (setOn_oRows_load c)

theorem sub_oRows_store (c : Dev nD) :
    ((oM.access (Rect.unit (s := S512x512) (k0_off4 c) S32x512.size (k0_off4_inb c))).setOn Finset.univ :
        Finset S512x512.Idx) ⊆ (oRows c).view.set :=
  Finset.subset_of_eq (set_access_own_rows c)

theorem rSlot_disjoint {x y : Dev nD} (h : x ≠ y) :
    Disjoint ((rSlot x).view.set : Finset S16x32x512.Idx) (rSlot y).view.set := by
  rw [Finset.disjoint_left]
  intro i hx hy
  rw [mem_rSlot] at hx hy
  exact h (Fin.ext (hx.symm.trans hy))

theorem rSlot_cover (i : S16x32x512.Idx) : ∃ x : Dev nD, i ∈ (rSlot x).view.set :=
  ⟨i 0, (mem_rSlot (i 0) i).mpr rfl⟩

theorem oRows_disjoint {x y : Dev nD} (h : x ≠ y) :
    Disjoint ((oRows x).view.set : Finset S512x512.Idx) (oRows y).view.set := by
  rw [Finset.disjoint_left]
  intro i hx hy
  rw [mem_oRows] at hx hy
  exact h (Fin.ext (hx.symm.trans hy))

theorem oRows_cover (i : S512x512.Idx) : ∃ x : Dev nD, i ∈ (oRows x).view.set :=
  ⟨blkOf (i 0), (mem_oRows (blkOf (i 0)) i).mpr rfl⟩

theorem read_rows_pM {off : Fin 2 → ℕ} (k : Fin 16) (h : off = ![32 * k.val, 0])
    (inb : ∀ a, off a + S32x512.size a ≤ S512x512.size a) (P : Vec F S512x512 .bf16) :
    (pM.access (Rect.unit (s := S512x512) off S32x512.size inb)).read (Elt F) P = rowsOf k P := by
  subst h
  funext j
  exact congrArg P (unit_rows_emb k inb j)

theorem read_rows_oM {off : Fin 2 → ℕ} (k : Fin 16) (h : off = ![32 * k.val, 0])
    (inb : ∀ a, off a + S32x512.size a ≤ S512x512.size a) (P : Vec F S512x512 .bf16) :
    (oM.access (Rect.unit (s := S512x512) off S32x512.size inb)).read (Elt F) P = rowsOf k P := by
  subst h
  funext j
  exact congrArg P (unit_rows_emb k inb j)

theorem read_slot_of_off {off : Fin 3 → ℕ} (x : Fin 16) (h : off = ![x.val, 0, 0])
    (inb : ∀ a, off a + S1x32x512.size a ≤ S16x32x512.size a) (g : Vec F S16x32x512 .bf16) :
    shapeCast S32x512 (rM.view.readAt (Elt F) (Rect.unit (s := S16x32x512) off S1x32x512.size inb).toLoadRect g)
        shapeCasts_S1x32x512_S32x512
      = fun j => g (ix3 x (j 0) (j 1)) := by
  subst h
  funext j
  obtain ⟨a, b, rfl⟩ : ∃ a b, j = ix2 a b := ⟨j 0, j 1, eq_ix2 j⟩
  refine (shapeCast_1ab_ab_apply _ _ a b).trans ?_
  show g ((Rect.unit (s := S16x32x512) ![x.val, 0, 0] S1x32x512.size inb).emb (ix3 (0 : Fin 1) a b)) = g (ix3 x a b)
  rw [unit_slot_emb]

theorem read_pbf_rows (c : Dev nD) (P : Vec F S512x512 .bf16) :
    pM.view.readAt (Elt F) (Rect.unit (s := S512x512) (k0_off4 c) S32x512.size (k0_off4_inb c)).toLoadRect P
      = rowsOf c P :=
  read_rows_pM c (k0_off4_eq c) _ P

theorem read_pSlice (c : Dev nD) (r : Fin 15) (P : Vec F S512x512 .bf16) :
    (pSlice c r).view.read (Elt F) P = rowsOf (fwd ((1 : ℕ) + r.val) c) P :=
  read_rows_pM (fwd ((1 : ℕ) + r.val) c) (off3_eq c r) _ P

theorem read_rSlot (x : Dev nD) (g : Vec F S16x32x512 .bf16) :
    (rSlot x).view.read (Elt F) g = fun j => g (ix3 x (j 0) (j 1)) :=
  read_slot_of_off x (k0_off2_eq x) _ g

theorem readAt_aM (f : Vec F S512x256 .f32) :
    aM.view.readAt (Elt F) (Rect.unit (s := S512x256) ![0, 0] S512x256.size inb_S512x256_S512x256_0_0).toLoadRect f = f :=
  Memref.readAt_unit_zero (Elt F) cc0_stg0_0 off00 _ f

theorem readAt_bM (f : Vec F S256x512 .f32) :
    bM.view.readAt (Elt F) (Rect.unit (s := S256x512) ![0, 0] S256x512.size inb_S256x512_S256x512_0_0).toLoadRect f = f :=
  Memref.readAt_unit_zero (Elt F) cc0_stg1_0 off00 _ f

theorem write_pM (f w : Vec F S512x512 .bf16) :
    ((pM.access (Rect.unit (s := S512x512) ![0, 0] S512x512.size inb_S512x512_S512x512_0_0) :
        View sig .tc .vmem S512x512 .bf16).write (Elt F) f w Finset.univ) = w :=
  Memref.write_access_unit_zero_univ (Elt F) cc0_scratch0 off00 _ f w

variable (m : (ℓ : Loc nD τ sig) → Buf (Elt F) ℓ)

theorem accN_zero (c : Dev nD) : accN m c 0 = k0_pay2 (rowsOf c (part m c)) := (pay2_eq _).symm

theorem accN_succ (c : Dev nD) (r : Fin 15) :
    accN m c (r.val + 1) = accStep (accN m c r.val) (rowsOf c (part m (fwd ((1 : ℕ) + r.val) c))) := by
  rw [Nat.add_comm 1 r.val]
  rfl

theorem read_rSlot_recvOf (c x : Dev nD) : (rSlot x).view.read (Elt F) (recvOf m c) = rowsOf c (part m x) := by
  rw [read_rSlot]; rfl

theorem read_slot_of_agree (c : Dev nD) (r : Fin 15) (g : Vec F S16x32x512 .bf16)
    (hg : ∀ i ∈ ((rSlot (fwd ((1 : ℕ) + r.val) c)).view.set : Finset S16x32x512.Idx), g i = recvOf m c i) :
    shapeCast S32x512 (rM.view.readAt (Elt F)
        (Rect.unit (s := S16x32x512) (k0_off7 c (BitVec.ofNat 32 (1 + r.val))) S1x32x512.size (k0_off7_inb c r)).toLoadRect g)
        shapeCasts_S1x32x512_S32x512
      = rowsOf c (part m (fwd ((1 : ℕ) + r.val) c)) := by
  rw [read_slot_of_off (fwd ((1 : ℕ) + r.val) c) (off7_eq c r)]
  funext j
  have hmem : ix3 (fwd ((1 : ℕ) + r.val) c) (j 0) (j 1)
      ∈ ((rSlot (fwd ((1 : ℕ) + r.val) c)).view.set : Finset S16x32x512.Idx) := (mem_rSlot _ _).mpr rfl
  exact (hg _ hmem).trans rfl

theorem read_slot (c : Dev nD) (r : Fin 15) :
    shapeCast S32x512 (rM.view.readAt (Elt F)
        (Rect.unit (s := S16x32x512) (k0_off7 c (BitVec.ofNat 32 (1 + r.val))) S1x32x512.size (k0_off7_inb c r)).toLoadRect
        (recvOf m c)) shapeCasts_S1x32x512_S32x512
      = rowsOf c (part m (fwd ((1 : ℕ) + r.val) c)) :=
  read_slot_of_agree m c r (recvOf m c) fun _ _ => rfl

theorem land_rs (x : Dev nD) (r : Fin 15) (fd : Vec F S16x32x512 .bf16) :
    ∀ i ∈ ((rSlot x).view.set : Finset S16x32x512.Idx),
      (rSlot x).view.write (Elt F) fd ((pSlice x r).view.read (Elt F) (part m x)) Finset.univ i
        = recvOf m (fwd ((1 : ℕ) + r.val) x) i := by
  intro i hi
  rw [read_pSlice, ← read_rSlot_recvOf m (fwd ((1 : ℕ) + r.val) x) x, View.write_read_eq_piecewise]
  exact Finset.piecewise_eq_of_mem _ _ _ hi

theorem land_ag (x : Dev nD) (fd : Vec F S512x512 .bf16) :
    ∀ i ∈ ((oRows x).view.set : Finset S512x512.Idx),
      (oRows x).view.write (Elt F) fd ((oRows x).view.read (Elt F) (res m)) Finset.univ i = res m i := by
  intro i hi
  rw [View.write_read_eq_piecewise]
  exact Finset.piecewise_eq_of_mem _ _ _ hi

theorem store_out (c : Dev nD) (f0 : Vec F S512x512 .bf16) :
    ∀ i ∈ ((oRows c).view.set : Finset S512x512.Idx),
      ((oM.access (Rect.unit (s := S512x512) (k0_off4 c) S32x512.size (k0_off4_inb c)) :
          View sig .tc .vmem S32x512 .bf16).write (Elt F) f0 (outRows m c) Finset.univ) i = res m i := by
  intro i hi
  rw [← rowsOf_res m c, ← read_rows_oM c (k0_off4_eq c) (k0_off4_inb c) (res m), View.write_read_eq_piecewise]
  refine Finset.piecewise_eq_of_mem _ _ _ ?_
  rw [← set_access_own_rows c] at hi
  exact hi

end Cert.KernelIdeal.Dist

end
-- ==== Proof.Regions.lean ====
import proofs.«900887_g7700000000000888_dist_matmul_k_i_m512_n512_k256_v7x_i16_bf16_1_alg».proof.Proof.Sched
import proofs.«900887_g7700000000000888_dist_matmul_k_i_m512_n512_k256_v7x_i16_bf16_1_alg».proof.Proof.Views
import Idealize.ShloMosaic.Lib.Ring

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem congr_out (c x : Dev nD) (f g : Vec F S512x512 .bf16)
    (h : ∀ i ∈ ((oRows x).view.set : Finset S512x512.Idx), f i = g i) :
    ((oRows x).view.loc (c : Thread nD τ) ↦[(oRows x).view.set]{fullShare} f : sProp 𝕄)
      ⊣⊢ ((oRows x).view.loc (c : Thread nD τ) ↦[(oRows x).view.set]{fullShare} g) :=
  .of_eq (pointsTo_congr h)

theorem land_rs_pts (c : Dev nD) (r : Fin 15)
    (fd : Buf (Elt F) ((rSlot c).view.loc ((fwd (1 + r.val) c : Dev nD) : Thread nD τ))) :
    ((rSlot c).view.loc ((fwd (1 + r.val) c : Dev nD) : Thread nD τ) ↦[(rSlot c).view.set]{fullShare}
        ((rSlot c).view.write (Elt F) fd ((pSlice c r).view.read (Elt F) (part m c)) Finset.univ) : sProp 𝕄)
      ⊢ rsRecvPay m (fwd (1 + r.val) c) c := by
  unfold rsRecvPay
  exact Entails.of_eq (pointsTo_congr (land_rs m c r fd))

theorem land_ag_pts (c : Dev nD) (r : Fin 15)
    (fd : Buf (Elt F) ((oRows c).view.loc ((fwd (1 + r.val) c : Dev nD) : Thread nD τ))) :
    ((oRows c).view.loc ((fwd (1 + r.val) c : Dev nD) : Thread nD τ) ↦[(oRows c).view.set]{fullShare}
        ((oRows c).view.write (Elt F) fd ((oRows c).view.read (Elt F) (res m)) Finset.univ) : sProp 𝕄)
      ⊢ agRecvPay m (fwd (1 + r.val) c) c := by
  unfold agRecvPay
  exact Entails.of_eq (pointsTo_congr (land_ag m c fd))

def ringNbr (c : Dev nD) : Fin 15 ↪ Dev nD :=
  ⟨fun r => fwd (1 + r.val) c, fun r r' e => fwd_inj_offset r r' c e⟩

theorem erase_eq_ringNbr (c : Dev nD) :
    (Finset.univ : Finset (Dev nD)).erase c = Finset.univ.map (ringNbr c) := by
  ext s
  rw [Finset.mem_erase, Finset.mem_map]
  constructor
  · rintro ⟨hs, -⟩
    obtain ⟨r, hr⟩ := exists_fwd_of_ne c s hs
    exact ⟨r, Finset.mem_univ r, hr.symm⟩
  · rintro ⟨r, -, rfl⟩
    exact ⟨fwd_ne_self r c, Finset.mem_univ _⟩

theorem bigSep_ring_peel (c : Dev nD) (Φ : Dev nD → sProp 𝕄) :
    bigSep Finset.univ Φ = iprop(Φ c ∗ bigSep Finset.univ (fun r : Fin 15 => Φ (fwd (1 + r.val) c))) := by
  have h : bigSep ((Finset.univ : Finset (Dev nD)).erase c) Φ
      = bigSep Finset.univ (fun r : Fin 15 => Φ (fwd (1 + r.val) c)) := by
    rw [erase_eq_ringNbr]
    exact bigSep_map (ringNbr c)
  rw [bigSep_univ_split c, h]
  try rfl

theorem biUnion_dev_eq_univ {α : Type} [Fintype α] [DecidableEq α] (I : Dev nD → Finset α) (h : ∀ i, ∃ x, i ∈ I x) :
    (Finset.univ : Finset (Dev nD)).biUnion I = Finset.univ := by
  ext i
  simp only [Finset.mem_biUnion, Finset.mem_univ, true_and, iff_true]
  exact h i

theorem split_recv (c : Dev nD) (f : Vec F S16x32x512 .bf16) :
    ((c : Thread nD τ).loc cc0_scratch1 ↦{fullShare} f : sProp 𝕄)
      ⊣⊢ bigSep Finset.univ (fun x : Dev nD =>
          (rSlot x).view.loc (c : Thread nD τ) ↦[(rSlot x).view.set]{fullShare} f) :=
  .of_eq (Ring.pointsTo_blocks (ℓ := (c : Thread nD τ).loc cc0_scratch1) (q := fullShare)
    (fun x : Dev nD => ((rSlot x).view.set : Finset S16x32x512.Idx)) (fun x y h => rSlot_disjoint h) (biUnion_dev_eq_univ _ rSlot_cover) f)

theorem split_recv_peel (c : Dev nD) (f : Vec F S16x32x512 .bf16) :
    ((c : Thread nD τ).loc cc0_scratch1 ↦{fullShare} f : sProp 𝕄)
      ⊣⊢ iprop(((rSlot c).view.loc (c : Thread nD τ) ↦[(rSlot c).view.set]{fullShare} f)
          ∗ bigSep Finset.univ (fun r : Fin 15 =>
              (rSlot (fwd (1 + r.val) c)).view.loc (c : Thread nD τ) ↦[(rSlot (fwd (1 + r.val) c)).view.set]{fullShare} f)) :=
  (split_recv c f).trans (.of_eq (bigSep_ring_peel c (fun x : Dev nD =>
    ((rSlot x).view.loc (c : Thread nD τ) ↦[(rSlot x).view.set]{fullShare} f : sProp 𝕄))))

theorem join_recv_ex (c : Dev nD) :
    (iprop((∃ f, (rSlot c).view.loc (c : Thread nD τ) ↦[(rSlot c).view.set]{fullShare} f)
        ∗ bigSep Finset.univ (fun r : Fin 15 =>
            iprop(∃ f, (rSlot (fwd (1 + r.val) c)).view.loc (c : Thread nD τ)
              ↦[(rSlot (fwd (1 + r.val) c)).view.set]{fullShare} f))) : sProp 𝕄)
      ⊢ iprop(∃ g, (c : Thread nD τ).loc cc0_scratch1 ↦{fullShare} g) :=
  (Entails.of_eq (bigSep_ring_peel c (fun x : Dev nD =>
      (iprop(∃ f, (rSlot x).view.loc (c : Thread nD τ) ↦[(rSlot x).view.set]{fullShare} f) : sProp 𝕄))).symm).trans
    (Ring.pointsTo_blocks_join_exists (ℓ := (c : Thread nD τ).loc cc0_scratch1) (q := fullShare)
      (fun x : Dev nD => ((rSlot x).view.set : Finset S16x32x512.Idx)) (fun x y h => rSlot_disjoint h) (biUnion_dev_eq_univ _ rSlot_cover)
      (fun _ => Classical.arbitrary _))

theorem split_out_all (c : Dev nD) (f : Vec F S512x512 .bf16) :
    ((c : Thread nD τ).loc cc0_stg2_0 ↦{fullShare} f : sProp 𝕄)
      ⊣⊢ bigSep Finset.univ (fun x : Dev nD =>
          (oRows x).view.loc (c : Thread nD τ) ↦[(oRows x).view.set]{fullShare} f) :=
  .of_eq (Ring.pointsTo_blocks (ℓ := (c : Thread nD τ).loc cc0_stg2_0) (q := fullShare)
    (fun x : Dev nD => ((oRows x).view.set : Finset S512x512.Idx)) (fun x y h => oRows_disjoint h) (biUnion_dev_eq_univ _ oRows_cover) f)

theorem split_out (c : Dev nD) (f : Vec F S512x512 .bf16) :
    ((c : Thread nD τ).loc cc0_stg2_0 ↦{fullShare} f : sProp 𝕄)
      ⊣⊢ iprop(((oRows c).view.loc (c : Thread nD τ) ↦[(oRows c).view.set]{fullShare} f)
          ∗ bigSep Finset.univ (fun r : Fin 15 =>
              (oRows (fwd (1 + r.val) c)).view.loc (c : Thread nD τ) ↦[(oRows (fwd (1 + r.val) c)).view.set]{fullShare} f)) :=
  (split_out_all c f).trans (.of_eq (bigSep_ring_peel c (fun x : Dev nD =>
    ((oRows x).view.loc (c : Thread nD τ) ↦[(oRows x).view.set]{fullShare} f : sProp 𝕄))))

def rowSet (k : Dev nD) : Finset S512x512.Idx := Finset.univ.filter fun i => (i 0).val / 32 = k.val

theorem mem_rowSet (k : Dev nD) (i : S512x512.Idx) : i ∈ rowSet k ↔ (i 0).val / 32 = k.val := by
  unfold rowSet
  rw [Finset.mem_filter]
  exact ⟨fun h => h.2, fun h => ⟨Finset.mem_univ _, h⟩⟩

theorem rowSet_disjoint (x y : Dev nD) (h : x ≠ y) : Disjoint (rowSet x) (rowSet y) := by
  rw [Finset.disjoint_left]
  intro i hx hy
  rw [mem_rowSet] at hx hy
  exact h (Fin.ext (hx.symm.trans hy))

theorem rowSet_cover : (Finset.univ : Finset (Dev nD)).biUnion rowSet = Finset.univ :=
  biUnion_dev_eq_univ rowSet fun i => ⟨blkOf (i 0), (mem_rowSet (blkOf (i 0)) i).mpr rfl⟩

theorem set_pOwn_rowSet (c : Dev nD) : ((pOwn c).view.set : Finset S512x512.Idx) = rowSet c :=
  Finset.ext fun i => (mem_pOwn c i).trans (mem_rowSet c i).symm

theorem set_pSlice_rowSet (c : Dev nD) (r : Fin 15) :
    ((pSlice c r).view.set : Finset S512x512.Idx) = rowSet (fwd (1 + r.val) c) :=
  Finset.ext fun i => (mem_pSlice c r i).trans (mem_rowSet (fwd (1 + r.val) c) i).symm

theorem part_pieces (c : Dev nD) (Ψ : Finset S512x512.Idx → sProp 𝕄) :
    (iprop(Ψ (pOwn c).view.set ∗ bigSep Finset.univ (fun r : Fin 15 => Ψ (pSlice c r).view.set)) : sProp 𝕄)
      = bigSep Finset.univ (fun x : Dev nD => Ψ (rowSet x)) := by
  have h2 : (fun r : Fin 15 => Ψ (pSlice c r).view.set) = fun r : Fin 15 => Ψ (rowSet (fwd (1 + r.val) c)) :=
    funext fun r => by rw [set_pSlice_rowSet]
  rw [bigSep_ring_peel c (fun x : Dev nD => Ψ (rowSet x)), set_pOwn_rowSet, h2]

theorem split_part (c : Dev nD) (f : Vec F S512x512 .bf16) :
    ((c : Thread nD τ).loc cc0_scratch0 ↦{fullShare} f : sProp 𝕄)
      ⊣⊢ iprop(((pOwn c).view.loc (c : Thread nD τ) ↦[(pOwn c).view.set]{fullShare} f)
          ∗ bigSep Finset.univ (fun r : Fin 15 =>
              (pSlice c r).view.loc (c : Thread nD τ) ↦[(pSlice c r).view.set]{fullShare} f)) :=
  (BiEntails.of_eq (Ring.pointsTo_blocks (ℓ := (c : Thread nD τ).loc cc0_scratch0) (q := fullShare)
      rowSet rowSet_disjoint rowSet_cover f)).trans
    (.of_eq (part_pieces c (fun S =>
      ((c : Thread nD τ).loc cc0_scratch0 ↦[S]{fullShare} f : sProp 𝕄))).symm)

theorem join_part_ex (c : Dev nD) :
    (iprop((∃ f, (pOwn c).view.loc (c : Thread nD τ) ↦[(pOwn c).view.set]{fullShare} f)
        ∗ bigSep Finset.univ (fun r : Fin 15 =>
            iprop(∃ f, (pSlice c r).view.loc (c : Thread nD τ) ↦[(pSlice c r).view.set]{fullShare} f))) : sProp 𝕄)
      ⊢ iprop(∃ g, (c : Thread nD τ).loc cc0_scratch0 ↦{fullShare} g) :=
  (Entails.of_eq (part_pieces c (fun S =>
      (iprop(∃ f, (c : Thread nD τ).loc cc0_scratch0 ↦[S]{fullShare} f) : sProp 𝕄)))).trans
    (Ring.pointsTo_blocks_join_exists (ℓ := (c : Thread nD τ).loc cc0_scratch0) (q := fullShare)
      rowSet rowSet_disjoint rowSet_cover (fun _ => Classical.arbitrary _))

section Shares

variable {ℓ : Loc nD τ sig} {S : Finset (Idx ℓ)} {f : Buf (Elt F) ℓ}

theorem share_peel (k : ℕ) :
    (ℓ ↦[S]{restShare k} f : sProp 𝕄)
      ⊣⊢ iprop((ℓ ↦[S]{(restShare k).left} f) ∗ ℓ ↦[S]{restShare (k + 1)} f) :=
  pointsTo_share (PosShare.mem_left_op_right (restShare k))

theorem share_range (n : ℕ) :
    (ℓ ↦[S]{fullShare} f : sProp 𝕄)
      ⊣⊢ iprop(bigSep (Finset.range n) (fun k => ℓ ↦[S]{(restShare k).left} f) ∗ ℓ ↦[S]{restShare n} f) := by
  induction n with
  | zero =>
    rw [Finset.range_zero, bigSep_empty]
    exact emp_sep.symm
  | succ n ih =>
    rw [Ring.bigSep_range_succ]
    refine ih.trans ?_
    refine (sep_congr_right (share_peel (ℓ := ℓ) (S := S) (f := f) n)).trans ?_
    exact sep_left_comm.trans sep_assoc.symm

theorem share_fin (n : ℕ) :
    (ℓ ↦[S]{fullShare} f : sProp 𝕄)
      ⊣⊢ iprop(bigSep Finset.univ (fun r : Fin n => ℓ ↦[S]{(restShare r.val).left} f) ∗ ℓ ↦[S]{restShare n} f) := by
  rw [Ring.bigSep_fin_eq_range n (fun r : Fin n => (ℓ ↦[S]{(restShare r.val).left} f : sProp 𝕄))
    (fun k => ℓ ↦[S]{(restShare k).left} f) (fun _ _ => rfl)]
  exact share_range n

end Shares

theorem share_split (c : Dev nD) (f : Vec F S512x512 .bf16) :
    ((oRows c).view.loc (c : Thread nD τ) ↦[(oRows c).view.set]{fullShare} f : sProp 𝕄)
      ⊣⊢ iprop((bigSep Finset.univ fun r : Fin 15 =>
              (oRows c).view.loc (c : Thread nD τ) ↦[(oRows c).view.set]{pieceShare r} f)
          ∗ ((oRows c).view.loc (c : Thread nD τ) ↦[(oRows c).view.set]{restShare 15} f)) :=
  share_fin 15

end Cert.KernelIdeal.Dist

end
-- ==== Proof.Steps.lean ====
import proofs.«900887_g7700000000000888_dist_matmul_k_i_m512_n512_k256_v7x_i16_bf16_1_alg».proof.Proof.Cells
import proofs.«900887_g7700000000000888_dist_matmul_k_i_m512_n512_k256_v7x_i16_bf16_1_alg».proof.Proof.Tables
import proofs.«900887_g7700000000000888_dist_matmul_k_i_m512_n512_k256_v7x_i16_bf16_1_alg».proof.Proof.Views
import proofs.«900887_g7700000000000888_dist_matmul_k_i_m512_n512_k256_v7x_i16_bf16_1_alg».proof.Proof.Regions

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/- One cell's invariant and the start of its first round, out of the persistent record of all cells. -/
theorem cell_at (K : Dev nD × Fin 65 → ℕ) (ck : Dev nD × Fin 65) {g : GSem nD τ sig} (hg : kcell ck = g) :
    records m K ⊢ iprop(cellInv ER (sched m) (K ck) g ∗ reached ER g 0) := by
  subst hg
  iintro #H
  isplitr
  · iapply (inv_at m K ck); iexact H
  · iapply (reached_at m K ck); iexact H

/- Pays the peer's entry duty; what it hands over is what later lets that peer copy into this device. -/
theorem step_signal (K : Dev nD × Fin 65 → ℕ) (c n : Dev nD) (r : Fin 15) (hn : n = fwd ((1 : ℕ) + r.val) c)
    {α : Type} {Q : α → sProp 𝕄} {k : PUnit → Prog (TpuEff nD τ sig (Elt F) Λ₀ .tc) α}
    (O : CellTallies nD τ sig Unit) (W : Waits sig Unit)
    (fr : Buf (Elt F) ((rSlot (fwd ((1 : ℕ) + r.val) c)).view.loc (c : Thread nD τ))) (fo : Buf (Elt F) ((oRows (fwd ((1 : ℕ) + r.val) c)).view.loc (c : Thread nD τ))) :
    iprop(records m K
        ∗ dutyTok ER (barCell (fwd ((1 : ℕ) + r.val) c)) 0 (sIx r)
        ∗ ((rSlot (fwd ((1 : ℕ) + r.val) c)).view.loc (c : Thread nD τ) ↦[(rSlot (fwd ((1 : ℕ) + r.val) c)).view.set]{fullShare} fr)
        ∗ ((oRows (fwd ((1 : ℕ) + r.val) c)).view.loc (c : Thread nD τ) ↦[(oRows (fwd ((1 : ℕ) + r.val) c)).view.set]{fullShare} fo)
        ∗ owes (c : Thread nD τ) (O + tallyAt (barCell (fwd ((1 : ℕ) + r.val) c)) () 1) W)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#Hrec, Ht, Hr, Ho, HO⟩ Hk
  ihave HIR := (cell_at m K (fwd ((1 : ℕ) + r.val) c, kBar) (kcell_bar _)) $$ Hrec
  icases HIR with ⟨#HI, #HR⟩
  iapply (Rounds.wp_signal 𝒱₀ ER (sched m) (c : Thread nD τ) none (dst := ((fwd ((1 : ℕ) + r.val) c : Dev nD) : Thread nD τ)) (κ := K (fwd ((1 : ℕ) + r.val) c, kBar)) (d := sIx r)
    (by rw [duties_bar]; exact Finset.mem_erase.mpr ⟨sIx_ne_zero r, Finset.mem_univ _⟩)
    (amount_bar m _ _) () O rfl) $$ [HO Ht Hr Ho]
  · isplitr; · iexact HI
    isplitl [HO]; · iexact HO
    isplitl [Ht]; · iexact Ht
    isplitl [Hr Ho]
    · rw [payload_bar_fwd m c r]; unfold barPay
      isplitl [Hr]; · iexists fr; iexact Hr
      iexists fo; iexact Ho
    iexact HR
  iexact Hk

/- The wait is for all fifteen entry signals at once, so it is the whole of the barrier cell's one round. -/
theorem step_bar_wait (K : Dev nD × Fin 65 → ℕ) (c : Dev nD)
    {α : Type} {Q : α → sProp 𝕄} {k : PUnit → Prog (TpuEff nD τ sig (Elt F) Λ₀ .tc) α} (W : Waits sig Unit)
    (hlev : (levAts L lv : sProp 𝕄) ⊢ MayWait (c : Thread nD τ) (.reg barS) () (owedFrom c 15)) :
    iprop(records m K ∗ cred (tallyAt (barCell c) () 15) ∗ levAts L lv ∗ atPos ER (barCell c) 0 ∅ 0
        ∗ owes (c : Thread nD τ) (owedFrom c 15) W)
      ⊢ iprop(((owes (c : Thread nD τ) (owedFrom c 15) (insert (SemLoc.reg barS, ()) W)
              ∗ atPos ER (barCell c) 1 ∅ 0
              ∗ bigSep Finset.univ (fun r : Fin 15 => barPay (fwd ((1 : ℕ) + r.val) c) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  iintro ⟨#Hrec, Hc, #Hlev, Hat, HO⟩ Hk
  ihave HIR := (cell_at m K (c, kBar) (kcell_bar _)) $$ Hrec
  icases HIR with ⟨#HI, -⟩
  iapply (Rounds.wp_wait_rest_token 𝒱₀ ER (sched m) (c : Thread nD τ) none (κ := K (c, kBar))
      (wpE_semWait_eq 𝒱₀ (c : Thread nD τ) none Set.univ) (Set.mem_univ _) () (O := owedFrom c 15) (W := W) (R := 0) (m := 0) (T := ∅)
      (by rw [expect_bar])) $$ [Hc HO Hat]
  · isplitr; · iexact HI
    isplitl [Hc]; · iexact Hc
    isplitl [HO]; · iexact HO
    isplitr; · iapply hlev; iexact Hlev
    iexact Hat
  iintro ⟨HO, Hat, -, Hpay⟩
  iapply Hk
  isplitl [HO]; · iexact HO
  isplitl [Hat]; · iexact Hat
  iapply (Entails.of_eq (rest_bar_fwd m c)); iexact Hpay

theorem step_rs_send (K : Dev nD × Fin 65 → ℕ) (c n : Dev nD) (r : Fin 15) (hn : n = fwd ((1 : ℕ) + r.val) c) (sS sR : DmaSem sig) (hsS : sS = rsSendS (sIx r)) (hsR : sR = rsRecvS c)
    {hsc : (rSlot c : Memref sig (Dev.tc n : Thread nD τ).2.kind .vmem S32x512 .bf16).view.ref.isScScratch = false}
    {hsrc : (pSlice c r).view.WordExact} {hdst : (rSlot c).view.WordExact}
    {hsem : DmaTarget.Typed .vmem (.dma sR) (.remote (Dev.tc n : Thread nD τ) (rSlot c) (.dma sS) hsc)}
    {α : Type} {Q : α → sProp 𝕄} {k : PUnit → Prog (TpuEff nD τ sig (Elt F) Λ₀ .tc) α}
    (fd : Buf (Elt F) ((rSlot c).view.loc ((fwd ((1 : ℕ) + r.val) c : Dev nD) : Thread nD τ))) (O : CellTallies nD τ sig Unit) (W : Waits sig Unit) :
    iprop(records m K
        ∗ ((pSlice c r).view.loc (c : Thread nD τ) ↦[(pSlice c r).view.set]{fullShare} part m c)
        ∗ ((rSlot c).view.loc ((fwd ((1 : ℕ) + r.val) c : Dev nD) : Thread nD τ) ↦[(rSlot c).view.set]{fullShare} fd)
        ∗ dutyTok ER (rsSendCell c (sIx r)) 0 0
        ∗ dutyTok ER (rsRecvCell (fwd ((1 : ℕ) + r.val) c) c) 0 0
        ∗ owes (c : Thread nD τ) (O + tallyAt (rsRecvCell (fwd ((1 : ℕ) + r.val) c) c) () NR) W)
      ⊢ iprop(((cred (tallyAt (rsSendCell c (sIx r)) () NR) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pSlice c r) (.remote (Dev.tc n : Thread nD τ) (rSlot c) (.dma sS) hsc) (.dma sR) hsrc hdst hsem) k) Q) := by
  subst hn; subst hsS; subst hsR
  iintro ⟨#Hrec, Hs, Hd, Ht1, Ht2, HO⟩ Hk
  ihave H1 := (cell_at m K (c, kRsS (sIx r)) (kcell_rsS _ _)) $$ Hrec
  icases H1 with ⟨#HI1, #HR1⟩
  ihave H2 := (cell_at m K (fwd ((1 : ℕ) + r.val) c, kRsR c) (kcell_rsR _ _)) $$ Hrec
  icases H2 with ⟨#HI2, #HR2⟩
  iapply (Rounds.wp_send_pointsTo 𝒱₀ ER (sched m) (c : Thread nD τ) none (c' := ((fwd ((1 : ℕ) + r.val) c : Dev nD) : Thread nD τ))
    (src := pSlice c r) (dst := rSlot c) (q := fullShare) (fs := part m c) (fd := fd)
    (κ₁ := K (c, kRsS (sIx r))) (κ₂ := K (fwd ((1 : ℕ) + r.val) c, kRsR c)) (r₁ := 0) (r₂ := 0) (d₁ := 0) (d₂ := 0)
    (by rw [duties_rsSend]; exact Finset.mem_singleton_self _) (by rw [duties_rsRecv_peer]; exact Finset.mem_singleton_self _)
    () () NR rfl (amount_rsSend m c (sIx r) 0) (amount_rsRecv m (fwd ((1 : ℕ) + r.val) c) c 0) O rfl (W := W)
    (by rw [payload_rsSend]; exact BI.Entails.refl _)
    (by rw [payload_rsRecv]; exact land_rs_pts m c r fd)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iexact Hk

theorem step_rs_wait (K : Dev nD × Fin 65 → ℕ) (c : Dev nD) (r : Fin 15) (sR : DmaSem sig) (hsR : sR = rsRecvS (fwd ((1 : ℕ) + r.val) c))
    {sp sp' : Space} {s : Shape} {e : EltTy} {src : Memref sig .tc sp s e} {dst : Memref sig .tc sp' s e} {hsrc : src.view.WordExact} {hdst : dst.view.WordExact}
    {α : Type} {Q : α → sProp 𝕄} {k : PUnit → Prog (TpuEff nD τ sig (Elt F) Λ₀ .tc) α} (O : CellTallies nD τ sig Unit) (W : Waits sig Unit)
    (hamt : dst.view.dmaCredit = NR)
    (hlev : (levAts L lv : sProp 𝕄) ⊢ MayWait (c : Thread nD τ) (.dma (rsRecvS (fwd ((1 : ℕ) + r.val) c))) () O) :
    iprop(records m K ∗ cred (tallyAt (rsRecvCell c (fwd ((1 : ℕ) + r.val) c)) () NR)
        ∗ levAts L lv ∗ atPos ER (rsRecvCell c (fwd ((1 : ℕ) + r.val) c)) 0 ∅ 0
        ∗ owes (c : Thread nD τ) O W)
      ⊢ iprop(((owes (c : Thread nD τ) O (insert (SemLoc.dma (rsRecvS (fwd ((1 : ℕ) + r.val) c)), ()) W)
              ∗ atPos ER (rsRecvCell c (fwd ((1 : ℕ) + r.val) c)) 1 ∅ 0
              ∗ rsRecvPay m c (fwd ((1 : ℕ) + r.val) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hsR
  iintro ⟨#Hrec, Hc, #Hlev, Hat, HO⟩ Hk
  ihave HIR := (cell_at m K (c, kRsR (fwd ((1 : ℕ) + r.val) c)) (kcell_rsR _ _)) $$ Hrec
  icases HIR with ⟨#HI, -⟩
  iapply (Rounds.wp_wait_rest_token 𝒱₀ ER (sched m) (c : Thread nD τ) none (κ := K (c, kRsR (fwd ((1 : ℕ) + r.val) c)))
      (wpE_waitDma2_eq 𝒱₀ (c : Thread nD τ) none Set.univ) (Set.mem_univ _) () (O := O) (W := W) (R := 0) (m := 0) (T := ∅)
      (by rw [Nat.zero_add, expect_rsRecv_at, hamt])) $$ [Hc HO Hat]
  · isplitr; · iexact HI
    isplitl [Hc]; · rw [hamt]; iexact Hc
    isplitl [HO]; · iexact HO
    isplitr; · iapply hlev; iexact Hlev
    iexact Hat
  iintro ⟨HO, Hat, -, Hpay⟩
  iapply Hk
  isplitl [HO]; · iexact HO
  isplitl [Hat]; · iexact Hat
  iapply (Entails.of_eq (rest_rsRecv_at m c r)); iexact Hpay

theorem step_ag_send (K : Dev nD × Fin 65 → ℕ) (c n : Dev nD) (r : Fin 15) (hn : n = fwd ((1 : ℕ) + r.val) c) (sS sR : DmaSem sig) (hsS : sS = agSendS (sIx r)) (hsR : sR = agRecvS c)
    {hsc : (oRows c : Memref sig (Dev.tc n : Thread nD τ).2.kind .vmem S32x512 .bf16).view.ref.isScScratch = false}
    {hsrc : (oRows c).view.WordExact} {hdst : (oRows c).view.WordExact}
    {hsem : DmaTarget.Typed .vmem (.dma sR) (.remote (Dev.tc n : Thread nD τ) (oRows c) (.dma sS) hsc)}
    {α : Type} {Q : α → sProp 𝕄} {k : PUnit → Prog (TpuEff nD τ sig (Elt F) Λ₀ .tc) α}
    (fd : Buf (Elt F) ((oRows c).view.loc ((fwd ((1 : ℕ) + r.val) c : Dev nD) : Thread nD τ))) (O : CellTallies nD τ sig Unit) (W : Waits sig Unit) :
    iprop(records m K
        ∗ ((oRows c).view.loc (c : Thread nD τ) ↦[(oRows c).view.set]{pieceShare r} res m)
        ∗ ((oRows c).view.loc ((fwd ((1 : ℕ) + r.val) c : Dev nD) : Thread nD τ) ↦[(oRows c).view.set]{fullShare} fd)
        ∗ dutyTok ER (agSendCell c (sIx r)) 0 0
        ∗ dutyTok ER (agRecvCell (fwd ((1 : ℕ) + r.val) c) c) 0 0
        ∗ owes (c : Thread nD τ) (O + tallyAt (agRecvCell (fwd ((1 : ℕ) + r.val) c) c) () NO) W)
      ⊢ iprop(((cred (tallyAt (agSendCell c (sIx r)) () NO) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oRows c) (.remote (Dev.tc n : Thread nD τ) (oRows c) (.dma sS) hsc) (.dma sR) hsrc hdst hsem) k) Q) := by
  subst hn; subst hsS; subst hsR
  iintro ⟨#Hrec, Hs, Hd, Ht1, Ht2, HO⟩ Hk
  ihave H1 := (cell_at m K (c, kAgS (sIx r)) (kcell_agS _ _)) $$ Hrec
  icases H1 with ⟨#HI1, #HR1⟩
  ihave H2 := (cell_at m K (fwd ((1 : ℕ) + r.val) c, kAgR c) (kcell_agR _ _)) $$ Hrec
  icases H2 with ⟨#HI2, #HR2⟩
  iapply (Rounds.wp_send_pointsTo 𝒱₀ ER (sched m) (c : Thread nD τ) none (c' := ((fwd ((1 : ℕ) + r.val) c : Dev nD) : Thread nD τ))
    (src := oRows c) (dst := oRows c) (q := pieceShare r) (fs := res m) (fd := fd)
    (κ₁ := K (c, kAgS (sIx r))) (κ₂ := K (fwd ((1 : ℕ) + r.val) c, kAgR c)) (r₁ := 0) (r₂ := 0) (d₁ := 0) (d₂ := 0)
    (by rw [duties_agSend]; exact Finset.mem_singleton_self _) (by rw [duties_agRecv_peer]; exact Finset.mem_singleton_self _)
    () () NO rfl (amount_agSend m c (sIx r) 0) (amount_agRecv m (fwd ((1 : ℕ) + r.val) c) c 0) O rfl (W := W)
    (by rw [payload_agSend]; exact BI.Entails.refl _)
    (by rw [payload_agRecv]; exact land_ag_pts m c r fd)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iexact Hk

theorem step_ag_wait (K : Dev nD × Fin 65 → ℕ) (c : Dev nD) (r : Fin 15) (sR : DmaSem sig) (hsR : sR = agRecvS (fwd ((1 : ℕ) + r.val) c))
    {sp sp' : Space} {s : Shape} {e : EltTy} {src : Memref sig .tc sp s e} {dst : Memref sig .tc sp' s e} {hsrc : src.view.WordExact} {hdst : dst.view.WordExact}
    {α : Type} {Q : α → sProp 𝕄} {k : PUnit → Prog (TpuEff nD τ sig (Elt F) Λ₀ .tc) α} (W : Waits sig Unit)
    (hamt : dst.view.dmaCredit = NO) :
    iprop(records m K ∗ cred (tallyAt (agRecvCell c (fwd ((1 : ℕ) + r.val) c)) () NO)
        ∗ atPos ER (agRecvCell c (fwd ((1 : ℕ) + r.val) c)) 0 ∅ 0
        ∗ owes (c : Thread nD τ) 0 W)
      ⊢ iprop(((owes (c : Thread nD τ) 0 (insert (SemLoc.dma (agRecvS (fwd ((1 : ℕ) + r.val) c)), ()) W)
              ∗ atPos ER (agRecvCell c (fwd ((1 : ℕ) + r.val) c)) 1 ∅ 0
              ∗ agRecvPay m c (fwd ((1 : ℕ) + r.val) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hsR
  iintro ⟨#Hrec, Hc, Hat, HO⟩ Hk
  ihave HIR := (cell_at m K (c, kAgR (fwd ((1 : ℕ) + r.val) c)) (kcell_agR _ _)) $$ Hrec
  icases HIR with ⟨#HI, -⟩
  iapply (Rounds.wp_wait_rest_token 𝒱₀ ER (sched m) (c : Thread nD τ) none (κ := K (c, kAgR (fwd ((1 : ℕ) + r.val) c)))
      (wpE_waitDma2_eq 𝒱₀ (c : Thread nD τ) none Set.univ) (Set.mem_univ _) () (O := 0) (W := W) (R := 0) (m := 0) (T := ∅)
      (by rw [Nat.zero_add, expect_agRecv_at, hamt])) $$ [Hc HO Hat]
  · isplitr; · iexact HI
    isplitl [Hc]; · rw [hamt]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_agRecv_at m c r)); iexact Hpay

theorem step_rs_send_wait (K : Dev nD × Fin 65 → ℕ) (c : Dev nD) (r : Fin 15) (sS : DmaSem sig) (hsS : sS = rsSendS (sIx r))
    {sp sp' : Space} {s : Shape} {e : EltTy} {src : Memref sig .tc sp s e} {dst : Memref sig .tc sp' s e} {hsrc : src.view.WordExact} {hdst : dst.view.WordExact}
    {α : Type} {Q : α → sProp 𝕄} {k : PUnit → Prog (TpuEff nD τ sig (Elt F) Λ₀ .tc) α} (W : Waits sig Unit)
    (hamt : dst.view.dmaCredit = NR) :
    iprop(records m K ∗ cred (tallyAt (rsSendCell c (sIx r)) () NR)
        ∗ atPos ER (rsSendCell c (sIx r)) 0 ∅ 0
        ∗ owes (c : Thread nD τ) 0 W)
      ⊢ iprop(((owes (c : Thread nD τ) 0 (insert (SemLoc.dma (rsSendS (sIx r)), ()) W)
              ∗ atPos ER (rsSendCell c (sIx r)) 1 ∅ 0
              ∗ rsSendPay m c r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS
  iintro ⟨#Hrec, Hc, Hat, HO⟩ Hk
  ihave HIR := (cell_at m K (c, kRsS (sIx r)) (kcell_rsS _ _)) $$ Hrec
  icases HIR with ⟨#HI, -⟩
  iapply (Rounds.wp_wait_rest_token 𝒱₀ ER (sched m) (c : Thread nD τ) none (κ := K (c, kRsS (sIx r)))
      (wpE_waitDma2_eq 𝒱₀ (c : Thread nD τ) none Set.univ) (Set.mem_univ _) () (O := 0) (W := W) (R := 0) (m := 0) (T := ∅)
      (by rw [Nat.zero_add, expect_rsSend, hamt])) $$ [Hc HO Hat]
  · isplitr; · iexact HI
    isplitl [Hc]; · rw [hamt]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_rsSend m c r)); iexact Hpay

theorem step_ag_send_wait (K : Dev nD × Fin 65 → ℕ) (c : Dev nD) (r : Fin 15) (sS : DmaSem sig) (hsS : sS = agSendS (sIx r))
    {sp sp' : Space} {s : Shape} {e : EltTy} {src : Memref sig .tc sp s e} {dst : Memref sig .tc sp' s e} {hsrc : src.view.WordExact} {hdst : dst.view.WordExact}
    {α : Type} {Q : α → sProp 𝕄} {k : PUnit → Prog (TpuEff nD τ sig (Elt F) Λ₀ .tc) α} (W : Waits sig Unit)
    (hamt : dst.view.dmaCredit = NO) :
    iprop(records m K ∗ cred (tallyAt (agSendCell c (sIx r)) () NO)
        ∗ atPos ER (agSendCell c (sIx r)) 0 ∅ 0
        ∗ owes (c : Thread nD τ) 0 W)
      ⊢ iprop(((owes (c : Thread nD τ) 0 (insert (SemLoc.dma (agSendS (sIx r)), ()) W)
              ∗ atPos ER (agSendCell c (sIx r)) 1 ∅ 0
              ∗ agSendPay m c r)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS
  iintro ⟨#Hrec, Hc, Hat, HO⟩ Hk
  ihave HIR := (cell_at m K (c, kAgS (sIx r)) (kcell_agS _ _)) $$ Hrec
  icases HIR with ⟨#HI, -⟩
  iapply (Rounds.wp_wait_rest_token 𝒱₀ ER (sched m) (c : Thread nD τ) none (κ := K (c, kAgS (sIx r)))
      (wpE_waitDma2_eq 𝒱₀ (c : Thread nD τ) none Set.univ) (Set.mem_univ _) () (O := 0) (W := W) (R := 0) (m := 0) (T := ∅)
      (by rw [Nat.zero_add, expect_agSend, hamt])) $$ [Hc HO Hat]
  · isplitr; · iexact HI
    isplitl [Hc]; · rw [hamt]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_agSend m c r)); iexact Hpay

end Cert.KernelIdeal.Dist

end
-- ==== Proof.Sems.lean ====
import proofs.«900887_g7700000000000888_dist_matmul_k_i_m512_n512_k256_v7x_i16_bf16_1_alg».proof.Proof.Sched

namespace Cert.KernelIdeal.Dist

open Cert.KernelIdeal Cert.KernelIdeal.Gen
open Idealize.ShloMosaic Idealize.ShloMosaic.TcCoe Idealize.SL.Sem

theorem sem_rsSend (r : Fin 15) (h : ∀ a, (![1 + r.val] : Fin 1 → ℕ) a + S1.size a ≤ S16.size a) :
    ((cc0_scratch3.slice (Rect.unit (s := S16) ![1 + r.val] S1.size h)).squeeze S_ squeezes_S1_S_).sem
      = rsSendS (sIx r) := by
  rw [semAt_lit]; rfl

theorem sem_agSend (r : Fin 15) (h : ∀ a, (![1 + r.val] : Fin 1 → ℕ) a + S1.size a ≤ S16.size a) :
    ((cc0_scratch5.slice (Rect.unit (s := S16) ![1 + r.val] S1.size h)).squeeze S_ squeezes_S1_S_).sem
      = agSendS (sIx r) := by
  rw [semAt_lit]; rfl

theorem sem_rsRecv_own (c : Dev nD) :
    ((cc0_scratch4.slice (Rect.unit (s := S16) (k0_off1 c) S1.size (k0_off1_inb c))).squeeze S_ squeezes_S1_S_).sem
      = rsRecvS c := by
  rw [semAt_own]; rfl

theorem sem_agRecv_own (c : Dev nD) :
    ((cc0_scratch6.slice (Rect.unit (s := S16) (k0_off1 c) S1.size (k0_off1_inb c))).squeeze S_ squeezes_S1_S_).sem
      = agRecvS c := by
  rw [semAt_own]; rfl

theorem sem_rsRecv_at (c : Dev nD) (r : Fin 15) :
    ((cc0_scratch4.slice (Rect.unit (s := S16) (k0_off5 c (BitVec.ofNat 32 (1 + r.val))) S1.size (k0_off5_inb c r))).squeeze S_ squeezes_S1_S_).sem
      = rsRecvS (fwd (1 + r.val) c) := by
  rw [semAt_fwd]; rfl

theorem sem_agRecv_at (c : Dev nD) (r : Fin 15) :
    ((cc0_scratch6.slice (Rect.unit (s := S16) (k0_off5 c (BitVec.ofNat 32 (1 + r.val))) S1.size (k0_off5_inb c r))).squeeze S_ squeezes_S1_S_).sem
      = agRecvS (fwd (1 + r.val) c) := by
  rw [semAt_fwd]; rfl

theorem amt_rSlotAt (c : Dev nD) (r : Fin 15) (q : DmaSem sig) : (rSlotAt c r).view.amount (.dma q) = NR := rfl

theorem amt_oRows (c : Dev nD) (q : DmaSem sig) : (oRows c).view.amount (.dma q) = NO := rfl

theorem amt_oRowsAt (c : Dev nD) (r : Fin 15) (q : DmaSem sig) : (oRowsAt c r).view.amount (.dma q) = NO := rfl

theorem amt_pSlice (c : Dev nD) (r : Fin 15) (q : DmaSem sig) : (pSlice c r).view.amount (.dma q) = NR := rfl

end Cert.KernelIdeal.Dist
-- ==== Proof.LaunchCred.lean ====
import proofs.«900887_g7700000000000888_dist_matmul_k_i_m512_n512_k256_v7x_i16_bf16_1_alg».proof.Proof.Inv
import Mathlib.Algebra.BigOperators.Intervals

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem owedFrom_end (c : Dev nD) : owedFrom c 45 = 0 := rfl

theorem oweStep_lt15 (c : Dev nD) (j : ℕ) (h : j < 15) : oweStep c j = tallyAt (barCell (fwd (1 + j) c)) () 1 := if_pos h
theorem oweStep_lt30 (c : Dev nD) (j : ℕ) (h1 : 15 ≤ j) (h2 : j < 30) :
    oweStep c j = tallyAt (rsRecvCell (fwd (1 + (j - 15)) c) c) () NR := by
  unfold oweStep; rw [if_neg (by omega), if_pos h2]
theorem oweStep_ge30 (c : Dev nD) (j : ℕ) (h : 30 ≤ j) :
    oweStep c j = tallyAt (agRecvCell (fwd (1 + (j - 30)) c) c) () NO := by
  unfold oweStep; rw [if_neg (by omega), if_neg (by omega)]

theorem oweStep_bar (c : Dev nD) (r : Fin 15) : oweStep c r.val = tallyAt (barCell (fwd (1 + r.val) c)) () 1 :=
  oweStep_lt15 c r.val r.isLt

theorem oweStep_rs (c : Dev nD) (r : Fin 15) : oweStep c (15 + r.val) = tallyAt (rsRecvCell (fwd (1 + r.val) c) c) () NR := by
  rw [oweStep_lt30 c (15 + r.val) (by omega) (by have := r.isLt; omega), Nat.add_sub_cancel_left]

theorem oweStep_ag (c : Dev nD) (r : Fin 15) : oweStep c (30 + r.val) = tallyAt (agRecvCell (fwd (1 + r.val) c) c) () NO := by
  rw [oweStep_ge30 c (30 + r.val) (by omega), Nat.add_sub_cancel_left]

theorem owedLast_pos (c : Dev nD) : ∀ (n : ℕ) (g : GSem nD τ sig) (u : Unit), 0 < owedLast c n g u →
    ∃ j, 45 ≤ j + n ∧ j < 45 ∧ 0 < oweStep c j g u
  | 0, g, u, h => by
    rw [show owedLast c 0 = 0 from rfl, Pi.zero_apply, Finsupp.zero_apply] at h
    exact absurd h (Nat.lt_irrefl 0)
  | n + 1, g, u, h => by
    rcases Pipeline.add_pos_cases (show 0 < (owedLast c n + oweStep c (44 - n)) g u from h) with h | h
    · obtain ⟨j, hj, hj', hp⟩ := owedLast_pos c n g u h
      exact ⟨j, by omega, hj', hp⟩
    · exact ⟨44 - n, by omega, by omega, h⟩

theorem owedFrom_pos (c : Dev nD) (k : ℕ) {g : GSem nD τ sig} {u : Unit} (h : 0 < owedFrom c k g u) :
    (∃ r : Fin 15, k ≤ r.val ∧ g = barCell (fwd (1 + r.val) c))
      ∨ (∃ r : Fin 15, k ≤ 15 + r.val ∧ g = rsRecvCell (fwd (1 + r.val) c) c)
      ∨ (∃ r : Fin 15, k ≤ 30 + r.val ∧ g = agRecvCell (fwd (1 + r.val) c) c) := by
  obtain ⟨j, hj, hj', hp⟩ := owedLast_pos c (45 - k) g u h
  by_cases h1 : j < 15
  · rw [oweStep_lt15 c j h1] at hp
    exact .inl ⟨⟨j, h1⟩, by show k ≤ j; omega, (Pipeline.tallyAt_pos hp).1⟩
  · by_cases h2 : j < 30
    · rw [oweStep_lt30 c j (by omega) h2] at hp
      exact .inr (.inl ⟨⟨j - 15, by omega⟩, by show k ≤ 15 + (j - 15); omega, (Pipeline.tallyAt_pos hp).1⟩)
    · rw [oweStep_ge30 c j (by omega)] at hp
      exact .inr (.inr ⟨⟨j - 30, by omega⟩, by show k ≤ 30 + (j - 30); omega, (Pipeline.tallyAt_pos hp).1⟩)

theorem L_tc (c : Dev nD) (sm : SemLoc sig) : L ((c : Thread nD τ), sm) = {()} := if_pos rfl

theorem lv_bar (c : Dev nD) : lv (barCell c) () = 1 := by revert c; decide +kernel
theorem lv_rsRecv (c : Dev nD) (x : Fin 16) : lv (rsRecvCell c x) () = 2 := by revert c x; decide +kernel
theorem lv_agRecv (c : Dev nD) (x : Fin 16) : lv (agRecvCell c x) () = 3 := by revert c x; decide +kernel
theorem lv_stage0 : ∀ q : DmaSem sig, q.val < 3 → lv (((0 : Dev nD) : Thread nD τ), SemLoc.dma q) () = 0 := by decide +kernel
theorem lv_stage (c : Dev nD) (q : DmaSem sig) (hq : q.val < 3) : lv ((c : Thread nD τ), SemLoc.dma q) () = 0 := lv_stage0 q hq

theorem owed_L (c : Dev nD) (k : ℕ) {g : GSem nD τ sig} {u : Unit} (h : 0 < owedFrom c k g u) : u ∈ L g := by
  cases u
  rcases owedFrom_pos c k h with ⟨r, -, rfl⟩ | ⟨r, -, rfl⟩ | ⟨r, -, rfl⟩ <;> rw [L_tc] <;> exact Finset.mem_singleton_self _
theorem owed_lv (c : Dev nD) (k : ℕ) {g : GSem nD τ sig} {u : Unit} (h : 0 < owedFrom c k g u) :
    1 ≤ lv g u ∧ (15 ≤ k → 2 ≤ lv g u) ∧ (30 ≤ k → 3 ≤ lv g u) := by
  cases u
  rcases owedFrom_pos c k h with ⟨r, hr, rfl⟩ | ⟨r, hr, rfl⟩ | ⟨r, hr, rfl⟩
  · rw [lv_bar]; have hr' := r.isLt; exact ⟨le_refl _, fun h15 => by omega, fun h30 => by omega⟩
  · rw [lv_rsRecv]; have hr' := r.isLt; exact ⟨by omega, fun h15 => le_refl _, fun h30 => by omega⟩
  · rw [lv_agRecv]; exact ⟨by omega, fun h15 => by omega, fun h30 => le_refl _⟩

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => owed_L c 0 hg)
      (fun p hp => by rw [Finset.mem_singleton.mp hp]; exact Nat.le_of_eq (lv_stage c q hq))
      (fun g u hg => (owed_lv c 0 hg).1)
  · rw [MayWait_zero]; iintro -; iempintro

theorem mayWait_bar (c : Dev nD) :
    (levAts L lv : sProp 𝕄) ⊢ MayWait (c : Thread nD τ) (.reg barS) () (owedFrom c 15) :=
  MayOwe.of_cut (L := L) (lev := lv) 1
    (fun p hp => by rw [Finset.mem_singleton.mp hp, L_tc]; exact Finset.mem_singleton_self _)
    (fun g u hg => owed_L c 15 hg)
    (fun p hp => by rw [Finset.mem_singleton.mp hp]; exact Nat.le_of_eq (lv_bar c))
    (fun g u hg => (owed_lv c 15 hg).2.1 (le_refl _))

theorem mayWait_rsRecv (c : Dev nD) (x : Fin 16) :
    (levAts L lv : sProp 𝕄) ⊢ MayWait (c : Thread nD τ) (.dma (rsRecvS x)) () (owedFrom c 30) :=
  MayOwe.of_cut (L := L) (lev := lv) 2
    (fun p hp => by rw [Finset.mem_singleton.mp hp, L_tc]; exact Finset.mem_singleton_self _)
    (fun g u hg => owed_L c 30 hg)
    (fun p hp => by rw [Finset.mem_singleton.mp hp]; exact Nat.le_of_eq (lv_rsRecv c x))
    (fun g u hg => (owed_lv c 30 hg).2.2 (le_refl _))

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def oweBar (r : Fin 15) (d : Dev nD) : CellTallies nD τ sig Unit := tallyAt (barCell (fwd (1 + r.val) d)) () 1
def oweRs (r : Fin 15) (d : Dev nD) : CellTallies nD τ sig Unit := tallyAt (rsRecvCell (fwd (1 + r.val) d) d) () NR
def oweAg (r : Fin 15) (d : Dev nD) : CellTallies nD τ sig Unit := tallyAt (agRecvCell (fwd (1 + r.val) d) d) () NO

theorem owedLast_sum (d : Dev nD) : ∀ n : ℕ, owedLast d n = ∑ i ∈ Finset.range n, oweStep d (44 - i)
  | 0 => rfl
  | n + 1 => (congrArg (· + oweStep d (44 - n)) (owedLast_sum d n)).trans
      (Finset.sum_range_succ (fun i => oweStep d (44 - i)) n).symm

theorem O₀_sum (d : Dev nD) :
    O₀ d = (∑ r : Fin 15, oweBar r d) + ((∑ r : Fin 15, oweRs r d) + ∑ r : Fin 15, oweAg r d) := by
  have e0 : (∑ i ∈ Finset.range 45, oweStep d (44 - i)) = ∑ j ∈ Finset.range 45, oweStep d j :=
    Finset.sum_range_reflect (oweStep d) 45
  have e1 : (∑ j ∈ Finset.range 45, oweStep d j)
      = (∑ j ∈ Finset.range 30, oweStep d j) + ∑ j ∈ Finset.range 15, oweStep d (30 + j) :=
    Finset.sum_range_add (oweStep d) 30 15
  have e2 : (∑ j ∈ Finset.range 30, oweStep d j)
      = (∑ j ∈ Finset.range 15, oweStep d j) + ∑ j ∈ Finset.range 15, oweStep d (15 + j) :=
    Finset.sum_range_add (oweStep d) 15 15
  have b : (∑ j ∈ Finset.range 15, oweStep d j) = ∑ r : Fin 15, oweBar r d := by
    rw [← Fin.sum_univ_eq_sum_range (oweStep d) 15]
    exact Finset.sum_congr rfl fun r _ => oweStep_bar d r
  have s : (∑ j ∈ Finset.range 15, oweStep d (15 + j)) = ∑ r : Fin 15, oweRs r d := by
    rw [← Fin.sum_univ_eq_sum_range (fun j => oweStep d (15 + j)) 15]
    exact Finset.sum_congr rfl fun r _ => oweStep_rs d r
  have a : (∑ j ∈ Finset.range 15, oweStep d (30 + j)) = ∑ r : Fin 15, oweAg r d := by
    rw [← Fin.sum_univ_eq_sum_range (fun j => oweStep d (30 + j)) 15]
    exact Finset.sum_congr rfl fun r _ => oweStep_ag d r
  show owedLast d 45 = _
  rw [owedLast_sum, e0, e1, e2, b, s, a, add_assoc]

theorem launchCred_O₀ (c : Dev nD) :
    (Pipeline.launchCred O₀ c : sProp 𝕄)
      = iprop((bigSep Finset.univ fun r : Fin 15 => Pipeline.launchCred (oweBar r) c)
          ∗ (bigSep Finset.univ fun r : Fin 15 => Pipeline.launchCred (oweRs r) c)
          ∗ (bigSep Finset.univ fun r : Fin 15 => Pipeline.launchCred (oweAg r) c)) := by
  rw [show (O₀ : Dev nD → CellTallies nD τ sig Unit)
      = fun d => (∑ r : Fin 15, oweBar r d) + ((∑ r : Fin 15, oweRs r d) + ∑ r : Fin 15, oweAg r d) from funext O₀_sum,
    Pipeline.launchCred_add, Pipeline.launchCred_add, Pipeline.launchCred_sum, Pipeline.launchCred_sum, Pipeline.launchCred_sum]

theorem launchCred_ring (sm : Dev nD → SemLoc sig) (f finv : Dev nD → Dev nD) (h1 : ∀ c, f (finv c) = c) (h2 : ∀ d, finv (f d) = d)
    (n : ℕ) (c : Dev nD) :
    (Pipeline.launchCred (fun d => tallyAt (((f d : Dev nD) : Thread nD τ), sm d) () n) c : sProp 𝕄)
      ⊢ cred (tallyAt ((c : Thread nD τ), sm (finv c)) () n) := by
  have h0 : ∀ d ∈ (Finset.univ : Finset (Dev nD)), d ≠ finv c →
      (tallyAt (((f d : Dev nD) : Thread nD τ), sm d) () n : CellTallies nD τ sig Unit) ((c : Thread nD τ), sm (finv c)) = 0 :=
    fun d _ hd => tallyAt_ne_cell (fun h => hd (by
      have h3 : c = f d := congrArg (fun g : GSem nD τ sig => g.1.1) h
      rw [h3, h2])) () n
  refine (Pipeline.launchCred_elim _ c (sm (finv c))).trans (Entails.of_eq (congrArg cred ?_))
  rw [Pipeline.tallyOn_launchCredit_owing, Finset.sum_apply, Finset.sum_eq_single (finv c) h0 (fun h => absurd (Finset.mem_univ _) h), h1]
  show tallyOn _ (tallyOn _ (Finsupp.single () n) _) = tallyOn _ (Finsupp.single () n)
  rw [tallyOn_self]

theorem cred_bar (c : Dev nD) (r : Fin 15) :
    (Pipeline.launchCred (oweBar r) c : sProp 𝕄) ⊢ cred (tallyAt (barCell c) () 1) :=
  launchCred_ring (fun _ => .reg barS) (fwd (1 + r.val)) (bwd (1 + r.val)) (fwd_bwd _) (bwd_fwd _) 1 c
theorem cred_rs (c : Dev nD) (r : Fin 15) :
    (Pipeline.launchCred (oweRs r) c : sProp 𝕄) ⊢ cred (tallyAt (rsRecvCell c (bwd (1 + r.val) c)) () NR) :=
  launchCred_ring (fun d => .dma (rsRecvS d)) (fwd (1 + r.val)) (bwd (1 + r.val)) (fwd_bwd _) (bwd_fwd _) NR c
theorem cred_ag (c : Dev nD) (r : Fin 15) :
    (Pipeline.launchCred (oweAg r) c : sProp 𝕄) ⊢ cred (tallyAt (agRecvCell c (bwd (1 + r.val) c)) () NO) :=
  launchCred_ring (fun d => .dma (agRecvS d)) (fwd (1 + r.val)) (bwd (1 + r.val)) (fwd_bwd _) (bwd_fwd _) NO c

def flip15 : Fin 15 ≃ Fin 15 where
  toFun r := ⟨14 - r.val, by omega⟩
  invFun r := ⟨14 - r.val, by omega⟩
  left_inv r := Fin.ext (by have := r.isLt; show 14 - (14 - r.val) = r.val; omega)
  right_inv r := Fin.ext (by have := r.isLt; show 14 - (14 - r.val) = r.val; omega)
theorem fwd_flip (c : Dev nD) (r : Fin 15) : fwd (1 + (flip15 r).val) c = bwd (1 + r.val) c := by
  have hc : c.val < 16 := c.isLt
  have hr : r.val < 15 := r.isLt
  apply Fin.ext
  show (c.val + (1 + (14 - r.val))) % 16 = (c.val + (16 - (1 + r.val) % 16)) % 16
  omega

theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

theorem bar_total (c : Dev nD) :
    (bigSep Finset.univ fun r : Fin 15 => (Pipeline.launchCred (oweBar r) c : sProp 𝕄)) ⊢ cred (tallyAt (barCell c) () 15) := by
  have e : (∑ _r : Fin 15, (tallyAt (barCell c) () 1 : CellTallies nD τ sig Unit)) = tallyAt (barCell c) () 15 := by
    rw [Finset.sum_const, Finset.card_univ, Fintype.card_fin, nsmul_tallyAt]
  rw [← e, Pipeline.cred_finsetSum]
  exact bigSep_mono fun r _ => cred_bar c r

theorem rs_total (c : Dev nD) :
    (bigSep Finset.univ fun r : Fin 15 => (Pipeline.launchCred (oweRs r) c : sProp 𝕄))
      ⊢ bigSep Finset.univ fun r : Fin 15 => cred (tallyAt (rsRecvCell c (fwd (1 + r.val) c)) () NR) := by
  rw [bigSep_univ_equiv flip15 (fun r : Fin 15 => (cred (tallyAt (rsRecvCell c (fwd (1 + r.val) c)) () NR) : sProp 𝕄))]
  refine bigSep_mono fun r _ => ?_
  show _ ⊢ cred (tallyAt (rsRecvCell c (fwd (1 + (flip15 r).val) c)) () NR)
  rw [fwd_flip]
  exact cred_rs c r
theorem ag_total (c : Dev nD) :
    (bigSep Finset.univ fun r : Fin 15 => (Pipeline.launchCred (oweAg r) c : sProp 𝕄))
      ⊢ bigSep Finset.univ fun r : Fin 15 => cred (tallyAt (agRecvCell c (fwd (1 + r.val) c)) () NO) := by
  rw [bigSep_univ_equiv flip15 (fun r : Fin 15 => (cred (tallyAt (agRecvCell c (fwd (1 + r.val) c)) () NO) : sProp 𝕄))]
  refine bigSep_mono fun r _ => ?_
  show _ ⊢ cred (tallyAt (agRecvCell c (fwd (1 + (flip15 r).val) c)) () NO)
  rw [fwd_flip]
  exact cred_ag c r

theorem creds (c : Dev nD) : (Pipeline.launchCred O₀ c : sProp 𝕄) ⊢ credits c := by
  rw [launchCred_O₀]
  unfold credits
  rw [bigSep_sep']
  exact BI.sep_mono (bar_total c) (BI.sep_mono (rs_total c) (ag_total c))

end Cert.KernelIdeal.Dist

end
-- ==== Proof.Close.lean ====
import proofs.«900887_g7700000000000888_dist_matmul_k_i_m512_n512_k256_v7x_i16_bf16_1_alg».proof.Proof.Cells
import proofs.«900887_g7700000000000888_dist_matmul_k_i_m512_n512_k256_v7x_i16_bf16_1_alg».proof.Proof.Tables

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def arr64 : Fin 4 × Fin 16 ≃ Fin 64 where
  toFun p := ⟨16 * p.1.val + p.2.val, by have h1 := p.1.isLt; have h2 := p.2.isLt; omega⟩
  invFun k := (⟨k.val / 16, by have h := k.isLt; omega⟩, ⟨k.val % 16, by omega⟩)
  left_inv p := by
    have h1 := p.1.isLt
    have h2 := p.2.isLt
    exact Prod.ext (Fin.ext (by show (16 * p.1.val + p.2.val) / 16 = p.1.val; omega))
      (Fin.ext (by show (16 * p.1.val + p.2.val) % 16 = p.2.val; omega))
  right_inv k := Fin.ext (by show 16 * (k.val / 16) + k.val % 16 = k.val; omega)

theorem osem_rsS (j : Fin 16) : osem (arr64 (0, j)) = (.dma (rsSendS j) : SemLoc sig) := by
  rw [← csem_rsS]
  exact congrArg csem (Fin.ext (by show 16 * 0 + j.val + 1 = 1 + j.val; omega))
theorem osem_rsR (j : Fin 16) : osem (arr64 (1, j)) = (.dma (rsRecvS j) : SemLoc sig) := by
  rw [← csem_rsR]
  exact congrArg csem (Fin.ext (by show 16 * 1 + j.val + 1 = 17 + j.val; omega))
theorem osem_agS (j : Fin 16) : osem (arr64 (2, j)) = (.dma (agSendS j) : SemLoc sig) := by
  rw [← csem_agS]
  exact congrArg csem (Fin.ext (by show 16 * 2 + j.val + 1 = 33 + j.val; omega))
theorem osem_agR (j : Fin 16) : osem (arr64 (3, j)) = (.dma (agRecvS j) : SemLoc sig) := by
  rw [← csem_agR]
  exact congrArg csem (Fin.ext (by show 16 * 3 + j.val + 1 = 49 + j.val; omega))

theorem erase_self_eq_map (c : Dev nD) :
    (Finset.univ.erase c) = Finset.univ.map ⟨fun r : Fin 15 => fwd ((1 : ℕ) + r.val) c, fun a b h => fwd_inj_offset a b c h⟩ := by
  ext s
  rw [Finset.mem_erase, Finset.mem_map]
  constructor
  · rintro ⟨hs, -⟩
    obtain ⟨r, hr⟩ := exists_fwd_of_ne c s hs
    exact ⟨r, Finset.mem_univ _, hr.symm⟩
  · rintro ⟨r, -, rfl⟩
    exact ⟨fwd_ne_self r c, Finset.mem_univ _⟩

theorem bigSep_send_split (Ψ : Fin 16 → sProp 𝕄) :
    bigSep Finset.univ Ψ = iprop(Ψ 0 ∗ bigSep Finset.univ fun r : Fin 15 => Ψ (sIx r)) := by
  rw [bigSep_univ_at Ψ 0, erase_zero_eq_map, bigSep_map] <;> rfl

theorem bigSep_recv_split (c : Dev nD) (Ψ : Dev nD → sProp 𝕄) :
    bigSep Finset.univ Ψ = iprop(Ψ c ∗ bigSep Finset.univ fun r : Fin 15 => Ψ (fwd ((1 : ℕ) + r.val) c)) := by
  rw [bigSep_univ_at Ψ c, erase_self_eq_map, bigSep_map] <;> rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem cells64 (c : Dev nD) (Φ : GSem nD τ sig → sProp 𝕄) :
    (bigSep Finset.univ fun k : Fin 64 => Φ (((c : Thread nD τ), osem k) : GSem nD τ sig))
      = iprop((Φ (rsSendCell c 0) ∗ bigSep Finset.univ fun r : Fin 15 => Φ (rsSendCell c (sIx r)))
          ∗ (Φ (rsRecvCell c c) ∗ bigSep Finset.univ fun r : Fin 15 => Φ (rsRecvCell c (fwd ((1 : ℕ) + r.val) c)))
          ∗ (Φ (agSendCell c 0) ∗ bigSep Finset.univ fun r : Fin 15 => Φ (agSendCell c (sIx r)))
          ∗ (Φ (agRecvCell c c) ∗ bigSep Finset.univ fun r : Fin 15 => Φ (agRecvCell c (fwd ((1 : ℕ) + r.val) c)))) := by
  rw [bigSep_univ_equiv arr64 (fun k : Fin 64 => Φ (((c : Thread nD τ), osem k) : GSem nD τ sig)), bigSep_univ_prod, bigSep_fin4]
  simp only [osem_rsS, osem_rsR, osem_agS, osem_agR]
  rw [bigSep_send_split (fun j => Φ (rsSendCell c j)), bigSep_recv_split c (fun x => Φ (rsRecvCell c x)),
    bigSep_send_split (fun j => Φ (agSendCell c j)), bigSep_recv_split c (fun x => Φ (agRecvCell c x))]

theorem close_rec (c : Dev nD) (K : Dev nD × Fin 65 → ℕ) (k : Fin 65) {g : GSem nD τ sig} (hg : kcell (c, k) = g) (R : ℕ)
    (hR : ∀ r, R ≤ r → (sched m).duties g r = ∅) :
    iprop(records m K ∗ atPos ER g R ∅ 0) ⊢ iprop(|={Set.univ}=> semVal g 0) := by
  subst hg
  iintro ⟨#HR, Hat⟩
  iapply (Rounds.cell_close ER (sched m) (Set.mem_univ (K (c, k))) (fun h => h) (R := R) hR)
  isplitr
  · iapply (inv_at m K (c, k)); iexact HR
  · iexact Hat

theorem close_fam (c : Dev nD) (K : Dev nD × Fin 65 → ℕ) (g : Fin 15 → GSem nD τ sig) (k : Fin 15 → Fin 65)
    (hg : ∀ i, kcell (c, k i) = g i) (R : ℕ) (hR : ∀ i r, R ≤ r → (sched m).duties (g i) r = ∅) :
    iprop(records m K ∗ bigSep Finset.univ fun i : Fin 15 => atPos ER (g i) R ∅ 0)
      ⊢ iprop(|={Set.univ}=> bigSep Finset.univ fun i : Fin 15 => semVal (g i) 0) :=
  ((sep_mono_left (BI.bigSep_of_persistent Finset.univ (records m K))).trans
    (by rw [← bigSep_sep']; exact bigSep_mono fun i _ => close_rec m c K (k i) (hg i) R (hR i))).trans (bigSep_fupd _ _)

theorem close_all (c : Dev nD) (K : Dev nD × Fin 65 → ℕ) :
    iprop(records m K
        ∗ atPos ER (rsSendCell c 0) 0 ∅ 0 ∗ atPos ER (agSendCell c 0) 0 ∅ 0 ∗ atPos ER (rsRecvCell c c) 0 ∅ 0 ∗ atPos ER (agRecvCell c c) 0 ∅ 0
        ∗ (bigSep Finset.univ fun r : Fin 15 => iprop(atPos ER (rsSendCell c (sIx r)) 1 ∅ 0 ∗ atPos ER (agSendCell c (sIx r)) 1 ∅ 0
              ∗ atPos ER (rsRecvCell c (fwd ((1 : ℕ) + r.val) c)) 1 ∅ 0 ∗ atPos ER (agRecvCell c (fwd ((1 : ℕ) + r.val) c)) 1 ∅ 0)))
      ⊢ iprop(|={Set.univ}=> bigSep Finset.univ fun k : Fin 64 => semVal (((c : Thread nD τ), osem k) : GSem nD τ sig) 0) := by
  rw [cells64 c (fun g => (semVal g 0 : sProp 𝕄)), bigSep_sep', bigSep_sep', bigSep_sep']
  iintro ⟨#HR, H1, H2, H3, H4, HS1, HS2, HV1, HV2⟩
  imod (close_rec m c K (kRsS 0) (kcell_rsS c 0) 0 fun r _ => duties_unused_rsSend m c r) $$ [H1] with Z1
  · isplitr; · iexact HR
    iexact H1
  imod (close_rec m c K (kAgS 0) (kcell_agS c 0) 0 fun r _ => duties_unused_agSend m c r) $$ [H2] with Z2
  · isplitr; · iexact HR
    iexact H2
  imod (close_rec m c K (kRsR c) (kcell_rsR c c) 0 fun r _ => duties_unused_rsRecv m c r) $$ [H3] with Z3
  · isplitr; · iexact HR
    iexact H3
  imod (close_rec m c K (kAgR c) (kcell_agR c c) 0 fun r _ => duties_unused_agRecv m c r) $$ [H4] with Z4
  · isplitr; · iexact HR
    iexact H4
  imod (close_fam m c K (fun r => rsSendCell c (sIx r)) (fun r => kRsS (sIx r)) (fun r => kcell_rsS c (sIx r)) 1
      fun i => duties_later m _) $$ [HS1] with ZS1
  · isplitr; · iexact HR
    iexact HS1
  imod (close_fam m c K (fun r => agSendCell c (sIx r)) (fun r => kAgS (sIx r)) (fun r => kcell_agS c (sIx r)) 1
      fun i => duties_later m _) $$ [HS2] with ZS2
  · isplitr; · iexact HR
    iexact HS2
  imod (close_fam m c K (fun r => rsRecvCell c (fwd ((1 : ℕ) + r.val) c)) (fun r => kRsR (fwd ((1 : ℕ) + r.val) c))
      (fun r => kcell_rsR c _) 1 fun i => duties_later m _) $$ [HV1] with ZV1
  · isplitr; · iexact HR
    iexact HV1
  imod (close_fam m c K (fun r => agRecvCell c (fwd ((1 : ℕ) + r.val) c)) (fun r => kAgR (fwd ((1 : ℕ) + r.val) c))
      (fun r => kcell_agR c _) 1 fun i => duties_later m _) $$ [HV2] with ZV2
  · isplitr; · iexact HR
    iexact HV2
  imodintro
  isplitl [Z1 ZS1]; · isplitl [Z1] <;> iassumption
  isplitl [Z3 ZV1]; · isplitl [Z3] <;> iassumption
  isplitl [Z2 ZS2]; · isplitl [Z2] <;> iassumption
  isplitl [Z4] <;> iassumption

theorem erase_zero65 :
    (Finset.univ.erase (0 : Fin 65))
      = Finset.univ.map ⟨fun k : Fin 64 => (⟨k.val + 1, by have h := k.isLt; omega⟩ : Fin 65),
          fun a b h => Fin.ext (by have := congrArg Fin.val h; change a.val + 1 = b.val + 1 at this; omega)⟩ := by
  ext j
  rw [Finset.mem_erase, Finset.mem_map]
  constructor
  · rintro ⟨hj, -⟩
    have hlt := j.isLt
    have hne : j.val ≠ 0 := fun e => hj (Fin.ext e)
    exact ⟨⟨j.val - 1, by omega⟩, Finset.mem_univ _, Fin.ext (by show j.val - 1 + 1 = j.val; omega)⟩
  · rintro ⟨k, -, rfl⟩
    exact ⟨fun h => absurd (congrArg Fin.val h) (by show k.val + 1 ≠ 0; omega), Finset.mem_univ _⟩

theorem cells65 (c : Dev nD) (Φ : GSem nD τ sig → sProp 𝕄) :
    (bigSep Finset.univ fun k : Fin 65 => Φ (kcell (c, k)))
      = iprop(Φ (barCell c) ∗ bigSep Finset.univ fun k : Fin 64 => Φ (((c : Thread nD τ), osem k) : GSem nD τ sig)) := by
  rw [bigSep_univ_at (fun k : Fin 65 => Φ (kcell (c, k))) (0 : Fin 65), erase_zero65, bigSep_map,
    show kcell (c, (0 : Fin 65)) = barCell c from kcell_bar c] <;> rfl

theorem positions_split (c : Dev nD) :
    (positions c : sProp 𝕄) ⊣⊢ iprop(atPos ER (barCell c) 0 ∅ 0
        ∗ atPos ER (rsSendCell c 0) 0 ∅ 0 ∗ atPos ER (agSendCell c 0) 0 ∅ 0 ∗ atPos ER (rsRecvCell c c) 0 ∅ 0 ∗ atPos ER (agRecvCell c c) 0 ∅ 0
        ∗ (bigSep Finset.univ fun r : Fin 15 => iprop(atPos ER (rsSendCell c (sIx r)) 0 ∅ 0 ∗ atPos ER (agSendCell c (sIx r)) 0 ∅ 0
              ∗ atPos ER (rsRecvCell c (fwd ((1 : ℕ) + r.val) c)) 0 ∅ 0 ∗ atPos ER (agRecvCell c (fwd ((1 : ℕ) + r.val) c)) 0 ∅ 0))) := by
  unfold positions
  rw [cells65 c (fun g => (atPos ER g 0 ∅ 0 : sProp 𝕄)), cells64 c (fun g => (atPos ER g 0 ∅ 0 : sProp 𝕄)), bigSep_sep', bigSep_sep', bigSep_sep']
  constructor
  · iintro ⟨HB, ⟨H1, HS1⟩, ⟨H3, HV1⟩, ⟨H2, HS2⟩, H4, HV2⟩
    isplitl [HB]; · iexact HB
    isplitl [H1]; · iexact H1
    isplitl [H2]; · iexact H2
    isplitl [H3]; · iexact H3
    isplitl [H4]; · iexact H4
    isplitl [HS1]; · iexact HS1
    isplitl [HS2]; · iexact HS2
    isplitl [HV1]; · iexact HV1
    iexact HV2
  · iintro ⟨HB, H1, H2, H3, H4, HS1, HS2, HV1, HV2⟩
    isplitl [HB]; · iexact HB
    isplitl [H1 HS1]; · isplitl [H1] <;> iassumption
    isplitl [H3 HV1]; · isplitl [H3] <;> iassumption
    isplitl [H2 HS2]; · isplitl [H2] <;> iassumption
    isplitl [H4] <;> iassumption

end Cert.KernelIdeal.Dist

end
-- ==== Proof.Views2.lean ====
import proofs.«900887_g7700000000000888_dist_matmul_k_i_m512_n512_k256_v7x_i16_bf16_1_alg».proof.Proof.Views
import Idealize.ShloMosaic.Lib.Writes

noncomputable section

namespace Cert.KernelIdeal.Dist

open Cert.KernelIdeal Cert.KernelIdeal.Gen
open Idealize.ShloMosaic Idealize.ShloMosaic.TcCoe Idealize.SL.Sem

variable {F : FTy → Type} [FloatOps F]

theorem prod_of_store (fp : Vec F S512x512 .bf16) (fa : Vec F S512x256 .f32) (fb : Vec F S256x512 .f32) :
    pM.view.writes (Elt F) fp [⟨Rect.unit (s := S512x512) ![0, 0] S512x512.size inb_S512x512_S512x512_0_0,
        k0_pay1
          (aM.view.readAt (Elt F) (Rect.unit (s := S512x256) ![0, 0] S512x256.size inb_S512x256_S512x256_0_0).toLoadRect fa)
          (bM.view.readAt (Elt F) (Rect.unit (s := S256x512) ![0, 0] S256x512.size inb_S256x512_S256x512_0_0).toLoadRect fb)⟩]
      = k0_pay1 fa fb := by
  rw [readAt_aM fa, readAt_bM fb]
  exact write_pM fp _

variable (m : (ℓ : Loc nD τ sig) → Buf (Elt F) ℓ)

theorem part_of_store (c : Dev nD) (fp : Buf (Elt F) ((c : Thread nD τ).loc cc0_scratch0)) :
    pM.view.writes (Elt F) fp [⟨Rect.unit (s := S512x512) ![0, 0] S512x512.size inb_S512x512_S512x512_0_0,
        k0_pay1
          (aM.view.readAt (Elt F) (Rect.unit (s := S512x256) ![0, 0] S512x256.size inb_S512x256_S512x256_0_0).toLoadRect
            (aOf m c))
          (bM.view.readAt (Elt F) (Rect.unit (s := S256x512) ![0, 0] S256x512.size inb_S256x512_S256x512_0_0).toLoadRect
            (bOf m c))⟩]
      = part m c :=
  prod_of_store fp (aOf m c) (bOf m c)

end Cert.KernelIdeal.Dist

end
-- ==== Proof.AccValue.lean ====
import proofs.«900887_g7700000000000888_dist_matmul_k_i_m512_n512_k256_v7x_i16_bf16_1_alg».proof.Proof.Views2

noncomputable section

namespace Cert.KernelIdeal.Dist

open Cert.KernelIdeal Cert.KernelIdeal.Gen
open Idealize.ShloMosaic Idealize.ShloMosaic.TcCoe Idealize.SL.Sem

variable {F : FTy → Type} [FloatOps F]

theorem readCov_head_at (r : Rect S32x512) (w : r.shape.Idx → Elt F .f32) (L : List (View.Piece (Elt F) S32x512 .f32)) :
    accM.view.readCov (⟨r, w⟩ :: L) r.toLoadRect = w :=
  View.readCov_cons_toLoadRect accM.view r w L

theorem readCov_head (w : Vec F S32x512 .f32) (L : List (View.Piece (Elt F) S32x512 .f32)) :
    accM.view.readCov (⟨Rect.unit (s := S32x512) ![0, 0] S32x512.size inb_S32x512_S32x512_0_0, w⟩ :: L)
        (Rect.unit (s := S32x512) ![0, 0] S32x512.size inb_S32x512_S32x512_0_0).toLoadRect = w :=
  readCov_head_at (Rect.unit (s := S32x512) ![0, 0] S32x512.size inb_S32x512_S32x512_0_0) w L

variable (m : (ℓ : Loc nD τ sig) → Buf (Elt F) ℓ)

theorem acc_start (c : Dev nD) :
    k0_pay2 (pM.view.readAt (Elt F) (Rect.unit (s := S512x512) (k0_off4 c) S32x512.size (k0_off4_inb c)).toLoadRect
        (part m c)) = accN m c 0 := by
  rw [read_pbf_rows]
  exact (accN_zero m c).symm

theorem acc_step (c : Dev nD) (r : Fin 15) :
    accStep (accN m c r.val)
        (shapeCast S32x512
          (rM.view.readAt (Elt F)
            (Rect.unit (s := S16x32x512) (k0_off7 c (BitVec.ofNat 32 (1 + r.val))) S1x32x512.size
              (k0_off7_inb c r)).toLoadRect (recvOf m c))
          shapeCasts_S1x32x512_S32x512)
      = accN m c (r.val + 1) := by
  rw [read_slot]
  exact (accN_succ m c r).symm

theorem acc_done (c : Dev nD) : k0_pay20 (accN m c 15) = outRows m c := rfl

end Cert.KernelIdeal.Dist

end
-- ==== Proof.BodyCore.lean ====
import proofs.«900887_g7700000000000888_dist_matmul_k_i_m512_n512_k256_v7x_i16_bf16_1_alg».proof.Proof.Steps
import proofs.«900887_g7700000000000888_dist_matmul_k_i_m512_n512_k256_v7x_i16_bf16_1_alg».proof.Proof.Sems
import proofs.«900887_g7700000000000888_dist_matmul_k_i_m512_n512_k256_v7x_i16_bf16_1_alg».proof.Proof.LaunchCred
import proofs.«900887_g7700000000000888_dist_matmul_k_i_m512_n512_k256_v7x_i16_bf16_1_alg».proof.Proof.Close
import proofs.«900887_g7700000000000888_dist_matmul_k_i_m512_n512_k256_v7x_i16_bf16_1_alg».proof.Proof.Regions
import proofs.«900887_g7700000000000888_dist_matmul_k_i_m512_n512_k256_v7x_i16_bf16_1_alg».proof.Proof.Views2
import proofs.«900887_g7700000000000888_dist_matmul_k_i_m512_n512_k256_v7x_i16_bf16_1_alg».proof.Proof.AccValue
import Idealize.ShloMosaic.Lib.Tactic

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
theorem sep_assoc_eq (P Q R : sProp 𝕄) : (iprop((P ∗ Q) ∗ R) : sProp 𝕄) = iprop(P ∗ Q ∗ R) := by
  have h : (iprop((P ∗ Q) ∗ R) : sProp 𝕄) ⊣⊢ iprop(P ∗ Q ∗ R) := Laws.sep_assoc
  exact BI.equiv_iff.mp ⟨h.1, h.2⟩

omit [FloatOps F] in
theorem chain15 (Φ : Fin 15 → sProp 𝕄) (R : sProp 𝕄) :
    (iprop(bigSep Finset.univ Φ ∗ R) : sProp 𝕄) = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ R) := by
  rw [bigSep_fin15]
  simp only [sep_assoc_eq]

def corePost (c : Dev nD) : sProp 𝕄 :=
  iprop(Φ₁ (F := F) c ∗ (∃ W' : Waits sig Unit, owes (c : Thread nD τ) 0 W')
    ∗ (aM.view.loc (c : Thread nD τ) ↦{fullShare} aOf m c) ∗ (bM.view.loc (c : Thread nD τ) ↦{fullShare} bOf m c)
    ∗ (oM.view.loc (c : Thread nD τ) ↦{fullShare} res m))

/- One device's body: greet the fifteen peers, send each its rows of the partial product, add the fifteen received to its own, send the sum to everybody and collect theirs. -/
set_option maxHeartbeats 16000000 in
set_option maxRecDepth 65536 in
theorem sound_core (K : Dev nD × Fin 65 → ℕ) (c : Dev nD) (Kt : PUnit → sProp 𝕄) (W : Waits sig Unit)
    (fa : Buf (Elt F) ((c : Thread nD τ).loc cc0_stg0_0)) (fb : Buf (Elt F) ((c : Thread nD τ).loc cc0_stg1_0))
    (fo : Buf (Elt F) ((c : Thread nD τ).loc cc0_stg2_0)) (fp : Buf (Elt F) ((c : Thread nD τ).loc cc0_scratch0))
    (fr : Buf (Elt F) ((c : Thread nD τ).loc cc0_scratch1)) (fc : Buf (Elt F) ((c : Thread nD τ).loc cc0_scratch2))
    (hfa : fa = aOf m c) (hfb : fb = bOf m c) :
    iprop((corePost m c -∗ Kt ⟨⟩)
        ∗ records m K
        ∗ levAts L lv
        ∗ owes (c : Thread nD τ) (O₀ c) W
        ∗ (bigSep Finset.univ fun r : Fin 15 => dutyTok ER (barCell (fwd (1 + r.val) c)) 0 (sIx r))
        ∗ (bigSep Finset.univ fun r : Fin 15 => dutyTok ER (rsSendCell c (sIx r)) 0 0)
        ∗ (bigSep Finset.univ fun r : Fin 15 => dutyTok ER (rsRecvCell (fwd (1 + r.val) c) c) 0 0)
        ∗ (bigSep Finset.univ fun r : Fin 15 => dutyTok ER (agSendCell c (sIx r)) 0 0)
        ∗ (bigSep Finset.univ fun r : Fin 15 => dutyTok ER (agRecvCell (fwd (1 + r.val) c) c) 0 0)
        ∗ atPos ER (barCell c) 0 ∅ 0
        ∗ (bigSep Finset.univ fun r : Fin 15 => atPos ER (rsSendCell c (sIx r)) 0 ∅ 0)
        ∗ (bigSep Finset.univ fun r : Fin 15 => atPos ER (rsRecvCell c (fwd (1 + r.val) c)) 0 ∅ 0)
        ∗ (bigSep Finset.univ fun r : Fin 15 => atPos ER (agSendCell c (sIx r)) 0 ∅ 0)
        ∗ (bigSep Finset.univ fun r : Fin 15 => atPos ER (agRecvCell c (fwd (1 + r.val) c)) 0 ∅ 0)
        ∗ atPos ER (rsSendCell c 0) 0 ∅ 0
        ∗ atPos ER (agSendCell c 0) 0 ∅ 0
        ∗ atPos ER (rsRecvCell c c) 0 ∅ 0
        ∗ atPos ER (agRecvCell c c) 0 ∅ 0
        ∗ cred (tallyAt (barCell c) () 15)
        ∗ (bigSep Finset.univ fun r : Fin 15 => cred (tallyAt (rsRecvCell c (fwd (1 + r.val) c)) () NR))
        ∗ (bigSep Finset.univ fun r : Fin 15 => cred (tallyAt (agRecvCell c (fwd (1 + r.val) c)) () NO))
        ∗ (aM.view.loc (c : Thread nD τ) ↦{fullShare} fa)
        ∗ (bM.view.loc (c : Thread nD τ) ↦{fullShare} fb)
        ∗ (pM.view.loc (c : Thread nD τ) ↦{fullShare} fp)
        ∗ (accM.view.loc (c : Thread nD τ) ↦{fullShare} fc)
        ∗ ((rSlot c).view.loc (c : Thread nD τ) ↦[(rSlot c).view.set]{fullShare} fr)
        ∗ (bigSep Finset.univ fun r : Fin 15 =>
            (rSlot (fwd (1 + r.val) c)).view.loc (c : Thread nD τ) ↦[(rSlot (fwd (1 + r.val) c)).view.set]{fullShare} fr)
        ∗ ((oRows c).view.loc (c : Thread nD τ) ↦[(oRows c).view.set]{fullShare} fo)
        ∗ (bigSep Finset.univ fun r : Fin 15 =>
            (oRows (fwd (1 + r.val) c)).view.loc (c : Thread nD τ) ↦[(oRows (fwd (1 + r.val) c)).view.set]{fullShare} fo))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6) Kt := by
  rw [chain15, chain15, chain15, chain15, chain15, chain15, chain15, chain15, chain15, chain15, chain15, chain15,
    bigSep_fin15]
  subst hfa; subst hfb
  iintro ⟨Hk, #Hrec, #Hlev, HO, HtB0, HtB1, HtB2, HtB3, HtB4, HtB5, HtB6, HtB7, HtB8, HtB9, HtB10, HtB11, HtB12, HtB13, HtB14, HtRS0, HtRS1, HtRS2, HtRS3, HtRS4, HtRS5, HtRS6, HtRS7, HtRS8, HtRS9, HtRS10, HtRS11, HtRS12, HtRS13, HtRS14, HtRR0, HtRR1, HtRR2, HtRR3, HtRR4, HtRR5, HtRR6, HtRR7, HtRR8, HtRR9, HtRR10, HtRR11, HtRR12, HtRR13, HtRR14, HtAS0, HtAS1, HtAS2, HtAS3, HtAS4, HtAS5, HtAS6, HtAS7, HtAS8, HtAS9, HtAS10, HtAS11, HtAS12, HtAS13, HtAS14, HtAR0, HtAR1, HtAR2, HtAR3, HtAR4, HtAR5, HtAR6, HtAR7, HtAR8, HtAR9, HtAR10, HtAR11, HtAR12, HtAR13, HtAR14, HaB, HaRS0, HaRS1, HaRS2, HaRS3, HaRS4, HaRS5, HaRS6, HaRS7, HaRS8, HaRS9, HaRS10, HaRS11, HaRS12, HaRS13, HaRS14, HaRR0, HaRR1, HaRR2, HaRR3, HaRR4, HaRR5, HaRR6, HaRR7, HaRR8, HaRR9, HaRR10, HaRR11, HaRR12, HaRR13, HaRR14, HaAS0, HaAS1, HaAS2, HaAS3, HaAS4, HaAS5, HaAS6, HaAS7, HaAS8, HaAS9, HaAS10, HaAS11, HaAS12, HaAS13, HaAS14, HaAR0, HaAR1, HaAR2, HaAR3, HaAR4, HaAR5, HaAR6, HaAR7, HaAR8, HaAR9, HaAR10, HaAR11, HaAR12, HaAR13, HaAR14, HaU1, HaU2, HaU3, HaU4, HcB, HcRR0, HcRR1, HcRR2, HcRR3, HcRR4, HcRR5, HcRR6, HcRR7, HcRR8, HcRR9, HcRR10, HcRR11, HcRR12, HcRR13, HcRR14, HcAR0, HcAR1, HcAR2, HcAR3, HcAR4, HcAR5, HcAR6, HcAR7, HcAR8, HcAR9, HcAR10, HcAR11, HcAR12, HcAR13, HcAR14, Ha, Hb, Hp, Hacc, HrOwn, Hr0, Hr1, Hr2, Hr3, Hr4, Hr5, Hr6, Hr7, Hr8, Hr9, Hr10, Hr11, Hr12, Hr13, Hr14, HoOwn, Ho0, Ho1, Ho2, Ho3, Ho4, Ho5, Ho6, Ho7, Ho8, Ho9, Ho10, Ho11, Ho12, Ho13, Ho14⟩

  have hsubP := sub_pOwn c
  have hsubOl := sub_oRows_load c
  have hsubOs := sub_oRows_store c
  have hsubR0 := sub_slot c 0
  have hsubR1 := sub_slot c 1
  have hsubR2 := sub_slot c 2
  have hsubR3 := sub_slot c 3
  have hsubR4 := sub_slot c 4
  have hsubR5 := sub_slot c 5
  have hsubR6 := sub_slot c 6
  have hsubR7 := sub_slot c 7
  have hsubR8 := sub_slot c 8
  have hsubR9 := sub_slot c 9
  have hsubR10 := sub_slot c 10
  have hsubR11 := sub_slot c 11
  have hsubR12 := sub_slot c 12
  have hsubR13 := sub_slot c 13
  have hsubR14 := sub_slot c 14
  sl_exec_parts
  iapply (step_signal m K c _ 0 (dev1_eq c) (owedFrom c 1) W fr fo) $$ [HO HtB0 Hr0 Ho0]
  · iframe Hrec HtB0 Hr0 Ho0; iexact HO
  iintro HO
  sl_exec_parts
  iapply (step_signal m K c _ 1 (dev2_eq c) (owedFrom c 2) W fr fo) $$ [HO HtB1 Hr1 Ho1]
  · iframe Hrec HtB1 Hr1 Ho1; iexact HO
  iintro HO
  sl_exec_parts
  iapply (step_signal m K c _ 2 (dev3_eq c) (owedFrom c 3) W fr fo) $$ [HO HtB2 Hr2 Ho2]
  · iframe Hrec HtB2 Hr2 Ho2; iexact HO
  iintro HO
  sl_exec_parts
  iapply (step_signal m K c _ 3 (dev4_eq c) (owedFrom c 4) W fr fo) $$ [HO HtB3 Hr3 Ho3]
  · iframe Hrec HtB3 Hr3 Ho3; iexact HO
  iintro HO
  sl_exec_parts
  iapply (step_signal m K c _ 4 (dev5_eq c) (owedFrom c 5) W fr fo) $$ [HO HtB4 Hr4 Ho4]
  · iframe Hrec HtB4 Hr4 Ho4; iexact HO
  iintro HO
  sl_exec_parts
  iapply (step_signal m K c _ 5 (dev6_eq c) (owedFrom c 6) W fr fo) $$ [HO HtB5 Hr5 Ho5]
  · iframe Hrec HtB5 Hr5 Ho5; iexact HO
  iintro HO
  sl_exec_parts
  iapply (step_signal m K c _ 6 (dev7_eq c) (owedFrom c 7) W fr fo) $$ [HO HtB6 Hr6 Ho6]
  · iframe Hrec HtB6 Hr6 Ho6; iexact HO
  iintro HO
  sl_exec_parts
  iapply (step_signal m K c _ 7 (dev8_eq c) (owedFrom c 8) W fr fo) $$ [HO HtB7 Hr7 Ho7]
  · iframe Hrec HtB7 Hr7 Ho7; iexact HO
  iintro HO
  sl_exec_parts
  iapply (step_signal m K c _ 8 (dev9_eq c) (owedFrom c 9) W fr fo) $$ [HO HtB8 Hr8 Ho8]
  · iframe Hrec HtB8 Hr8 Ho8; iexact HO
  iintro HO
  sl_exec_parts
  iapply (step_signal m K c _ 9 (dev10_eq c) (owedFrom c 10) W fr fo) $$ [HO HtB9 Hr9 Ho9]
  · iframe Hrec HtB9 Hr9 Ho9; iexact HO
  iintro HO
  sl_exec_parts
  iapply (step_signal m K c _ 10 (dev11_eq c) (owedFrom c 11) W fr fo) $$ [HO HtB10 Hr10 Ho10]
  · iframe Hrec HtB10 Hr10 Ho10; iexact HO
  iintro HO
  sl_exec_parts
  iapply (step_signal m K c _ 11 (dev12_eq c) (owedFrom c 12) W fr fo) $$ [HO HtB11 Hr11 Ho11]
  · iframe Hrec HtB11 Hr11 Ho11; iexact HO
  iintro HO
  sl_exec_parts
  iapply (step_signal m K c _ 12 (dev13_eq c) (owedFrom c 13) W fr fo) $$ [HO HtB12 Hr12 Ho12]
  · iframe Hrec HtB12 Hr12 Ho12; iexact HO
  iintro HO
  sl_exec_parts
  iapply (step_signal m K c _ 13 (dev14_eq c) (owedFrom c 14) W fr fo) $$ [HO HtB13 Hr13 Ho13]
  · iframe Hrec HtB13 Hr13 Ho13; iexact HO
  iintro HO
  sl_exec_parts
  iapply (step_signal m K c _ 14 (dev15_eq c) (owedFrom c 15) W fr fo) $$ [HO HtB14 Hr14 Ho14]
  · iframe Hrec HtB14 Hr14 Ho14; iexact HO
  iintro HO
  sl_exec_parts

  iapply (step_bar_wait m K c W (mayWait_bar c)) $$ [HcB HO HaB]
  · iframe Hrec HcB HaB Hlev; iexact HO
  iintro ⟨HO, HaB, Hpay⟩
  ihave Hpay := (Entails.of_eq (bigSep_fin15 _)) $$ Hpay
  unfold barPay
  icases Hpay with ⟨⟨⟨%fs0, Hps0⟩, ⟨%fq0, Hpo0⟩⟩, ⟨⟨%fs1, Hps1⟩, ⟨%fq1, Hpo1⟩⟩, ⟨⟨%fs2, Hps2⟩, ⟨%fq2, Hpo2⟩⟩, ⟨⟨%fs3, Hps3⟩, ⟨%fq3, Hpo3⟩⟩, ⟨⟨%fs4, Hps4⟩, ⟨%fq4, Hpo4⟩⟩, ⟨⟨%fs5, Hps5⟩, ⟨%fq5, Hpo5⟩⟩, ⟨⟨%fs6, Hps6⟩, ⟨%fq6, Hpo6⟩⟩, ⟨⟨%fs7, Hps7⟩, ⟨%fq7, Hpo7⟩⟩, ⟨⟨%fs8, Hps8⟩, ⟨%fq8, Hpo8⟩⟩, ⟨⟨%fs9, Hps9⟩, ⟨%fq9, Hpo9⟩⟩, ⟨⟨%fs10, Hps10⟩, ⟨%fq10, Hpo10⟩⟩, ⟨⟨%fs11, Hps11⟩, ⟨%fq11, Hpo11⟩⟩, ⟨⟨%fs12, Hps12⟩, ⟨%fq12, Hpo12⟩⟩, ⟨⟨%fs13, Hps13⟩, ⟨%fq13, Hpo13⟩⟩, ⟨⟨%fs14, Hps14⟩, ⟨%fq14, Hpo14⟩⟩⟩
  sl_exec_parts

  rw [part_of_store m c fp]
  ihave Hsp := (split_part c (part m c)).1 $$ Hp
  icases Hsp with ⟨HpOwn, Hpr⟩
  ihave Hpr := (Entails.of_eq (bigSep_fin15 _)) $$ Hpr
  icases Hpr with ⟨Hp0, Hp1, Hp2, Hp3, Hp4, Hp5, Hp6, Hp7, Hp8, Hp9, Hp10, Hp11, Hp12, Hp13, Hp14⟩

  iapply (step_rs_send m K c _ 0 (dev16_eq c) _ _ (sem_rsSend 0 inb_S16_S1_1) (sem_rsRecv_own c) fs0 (owedFrom c 16) _) $$ [Hp0 Hps0 HO HtRS0 HtRR0]
  · iframe Hrec Hp0 Hps0 HtRS0 HtRR0; iexact HO
  iintro ⟨HcRS0, HO⟩
  sl_exec_parts

  iapply (step_rs_send m K c _ 1 (dev17_eq c) _ _ (sem_rsSend 1 inb_S16_S1_2) (sem_rsRecv_own c) fs1 (owedFrom c 17) _) $$ [Hp1 Hps1 HO HtRS1 HtRR1]
  · iframe Hrec Hp1 Hps1 HtRS1 HtRR1; iexact HO
  iintro ⟨HcRS1, HO⟩
  sl_exec_parts

  iapply (step_rs_send m K c _ 2 (dev18_eq c) _ _ (sem_rsSend 2 inb_S16_S1_3) (sem_rsRecv_own c) fs2 (owedFrom c 18) _) $$ [Hp2 Hps2 HO HtRS2 HtRR2]
  · iframe Hrec Hp2 Hps2 HtRS2 HtRR2; iexact HO
  iintro ⟨HcRS2, HO⟩
  sl_exec_parts

  iapply (step_rs_send m K c _ 3 (dev19_eq c) _ _ (sem_rsSend 3 inb_S16_S1_4) (sem_rsRecv_own c) fs3 (owedFrom c 19) _) $$ [Hp3 Hps3 HO HtRS3 HtRR3]
  · iframe Hrec Hp3 Hps3 HtRS3 HtRR3; iexact HO
  iintro ⟨HcRS3, HO⟩
  sl_exec_parts

  iapply (step_rs_send m K c _ 4 (dev20_eq c) _ _ (sem_rsSend 4 inb_S16_S1_5) (sem_rsRecv_own c) fs4 (owedFrom c 20) _) $$ [Hp4 Hps4 HO HtRS4 HtRR4]
  · iframe Hrec Hp4 Hps4 HtRS4 HtRR4; iexact HO
  iintro ⟨HcRS4, HO⟩
  sl_exec_parts

  iapply (step_rs_send m K c _ 5 (dev21_eq c) _ _ (sem_rsSend 5 inb_S16_S1_6) (sem_rsRecv_own c) fs5 (owedFrom c 21) _) $$ [Hp5 Hps5 HO HtRS5 HtRR5]
  · iframe Hrec Hp5 Hps5 HtRS5 HtRR5; iexact HO
  iintro ⟨HcRS5, HO⟩
  sl_exec_parts

  iapply (step_rs_send m K c _ 6 (dev22_eq c) _ _ (sem_rsSend 6 inb_S16_S1_7) (sem_rsRecv_own c) fs6 (owedFrom c 22) _) $$ [Hp6 Hps6 HO HtRS6 HtRR6]
  · iframe Hrec Hp6 Hps6 HtRS6 HtRR6; iexact HO
  iintro ⟨HcRS6, HO⟩
  sl_exec_parts

  iapply (step_rs_send m K c _ 7 (dev23_eq c) _ _ (sem_rsSend 7 inb_S16_S1_8) (sem_rsRecv_own c) fs7 (owedFrom c 23) _) $$ [Hp7 Hps7 HO HtRS7 HtRR7]
  · iframe Hrec Hp7 Hps7 HtRS7 HtRR7; iexact HO
  iintro ⟨HcRS7, HO⟩
  sl_exec_parts

  iapply (step_rs_send m K c _ 8 (dev24_eq c) _ _ (sem_rsSend 8 inb_S16_S1_9) (sem_rsRecv_own c) fs8 (owedFrom c 24) _) $$ [Hp8 Hps8 HO HtRS8 HtRR8]
  · iframe Hrec Hp8 Hps8 HtRS8 HtRR8; iexact HO
  iintro ⟨HcRS8, HO⟩
  sl_exec_parts

  iapply (step_rs_send m K c _ 9 (dev25_eq c) _ _ (sem_rsSend 9 inb_S16_S1_10) (sem_rsRecv_own c) fs9 (owedFrom c 25) _) $$ [Hp9 Hps9 HO HtRS9 HtRR9]
  · iframe Hrec Hp9 Hps9 HtRS9 HtRR9; iexact HO
  iintro ⟨HcRS9, HO⟩
  sl_exec_parts

  iapply (step_rs_send m K c _ 10 (dev26_eq c) _ _ (sem_rsSend 10 inb_S16_S1_11) (sem_rsRecv_own c) fs10 (owedFrom c 26) _) $$ [Hp10 Hps10 HO HtRS10 HtRR10]
  · iframe Hrec Hp10 Hps10 HtRS10 HtRR10; iexact HO
  iintro ⟨HcRS10, HO⟩
  sl_exec_parts

  iapply (step_rs_send m K c _ 11 (dev27_eq c) _ _ (sem_rsSend 11 inb_S16_S1_12) (sem_rsRecv_own c) fs11 (owedFrom c 27) _) $$ [Hp11 Hps11 HO HtRS11 HtRR11]
  · iframe Hrec Hp11 Hps11 HtRS11 HtRR11; iexact HO
  iintro ⟨HcRS11, HO⟩
  sl_exec_parts

  iapply (step_rs_send m K c _ 12 (dev28_eq c) _ _ (sem_rsSend 12 inb_S16_S1_13) (sem_rsRecv_own c) fs12 (owedFrom c 28) _) $$ [Hp12 Hps12 HO HtRS12 HtRR12]
  · iframe Hrec Hp12 Hps12 HtRS12 HtRR12; iexact HO
  iintro ⟨HcRS12, HO⟩
  sl_exec_parts

  iapply (step_rs_send m K c _ 13 (dev29_eq c) _ _ (sem_rsSend 13 inb_S16_S1_14) (sem_rsRecv_own c) fs13 (owedFrom c 29) _) $$ [Hp13 Hps13 HO HtRS13 HtRR13]
  · iframe Hrec Hp13 Hps13 HtRS13 HtRR13; iexact HO
  iintro ⟨HcRS13, HO⟩
  sl_exec_parts

  iapply (step_rs_send m K c _ 14 (dev30_eq c) _ _ (sem_rsSend 14 inb_S16_S1_15) (sem_rsRecv_own c) fs14 (owedFrom c 30) _) $$ [Hp14 Hps14 HO HtRS14 HtRR14]
  · iframe Hrec Hp14 Hps14 HtRS14 HtRR14; iexact HO
  iintro ⟨HcRS14, HO⟩
  sl_exec_parts

  iapply (step_rs_wait m K c 0 _ (sem_rsRecv_at c 0) (owedFrom c 30) _ (amt_rSlotAt c 0 (rsRecvS c)) (mayWait_rsRecv c (fwd (1 + (0 : Fin 15).val) c))) $$ [HcRR0 HO HaRR0]
  · iframe Hrec HcRR0 HaRR0 Hlev; iexact HO
  iintro ⟨HO, HaRR0, Hrv0⟩
  unfold rsRecvPay
  sl_exec_parts
  iapply (wp_load 𝒱₀ (c : Thread nD τ) none Set.univ (m := rM) hsubR0) $$ Hrv0
  iintro Hrv0
  sl_exec_parts

  iapply (step_rs_wait m K c 1 _ (sem_rsRecv_at c 1) (owedFrom c 30) _ (amt_rSlotAt c 1 (rsRecvS c)) (mayWait_rsRecv c (fwd (1 + (1 : Fin 15).val) c))) $$ [HcRR1 HO HaRR1]
  · iframe Hrec HcRR1 HaRR1 Hlev; iexact HO
  iintro ⟨HO, HaRR1, Hrv1⟩
  unfold rsRecvPay
  sl_exec_parts
  iapply (wp_load 𝒱₀ (c : Thread nD τ) none Set.univ (m := rM) hsubR1) $$ Hrv1
  iintro Hrv1
  sl_exec_parts

  iapply (step_rs_wait m K c 2 _ (sem_rsRecv_at c 2) (owedFrom c 30) _ (amt_rSlotAt c 2 (rsRecvS c)) (mayWait_rsRecv c (fwd (1 + (2 : Fin 15).val) c))) $$ [HcRR2 HO HaRR2]
  · iframe Hrec HcRR2 HaRR2 Hlev; iexact HO
  iintro ⟨HO, HaRR2, Hrv2⟩
  unfold rsRecvPay
  sl_exec_parts
  iapply (wp_load 𝒱₀ (c : Thread nD τ) none Set.univ (m := rM) hsubR2) $$ Hrv2
  iintro Hrv2
  sl_exec_parts

  iapply (step_rs_wait m K c 3 _ (sem_rsRecv_at c 3) (owedFrom c 30) _ (amt_rSlotAt c 3 (rsRecvS c)) (mayWait_rsRecv c (fwd (1 + (3 : Fin 15).val) c))) $$ [HcRR3 HO HaRR3]
  · iframe Hrec HcRR3 HaRR3 Hlev; iexact HO
  iintro ⟨HO, HaRR3, Hrv3⟩
  unfold rsRecvPay
  sl_exec_parts
  iapply (wp_load 𝒱₀ (c : Thread nD τ) none Set.univ (m := rM) hsubR3) $$ Hrv3
  iintro Hrv3
  sl_exec_parts

  iapply (step_rs_wait m K c 4 _ (sem_rsRecv_at c 4) (owedFrom c 30) _ (amt_rSlotAt c 4 (rsRecvS c)) (mayWait_rsRecv c (fwd (1 + (4 : Fin 15).val) c))) $$ [HcRR4 HO HaRR4]
  · iframe Hrec HcRR4 HaRR4 Hlev; iexact HO
  iintro ⟨HO, HaRR4, Hrv4⟩
  unfold rsRecvPay
  sl_exec_parts
  iapply (wp_load 𝒱₀ (c : Thread nD τ) none Set.univ (m := rM) hsubR4) $$ Hrv4
  iintro Hrv4
  sl_exec_parts

  iapply (step_rs_wait m K c 5 _ (sem_rsRecv_at c 5) (owedFrom c 30) _ (amt_rSlotAt c 5 (rsRecvS c)) (mayWait_rsRecv c (fwd (1 + (5 : Fin 15).val) c))) $$ [HcRR5 HO HaRR5]
  · iframe Hrec HcRR5 HaRR5 Hlev; iexact HO
  iintro ⟨HO, HaRR5, Hrv5⟩
  unfold rsRecvPay
  sl_exec_parts
  iapply (wp_load 𝒱₀ (c : Thread nD τ) none Set.univ (m := rM) hsubR5) $$ Hrv5
  iintro Hrv5
  sl_exec_parts

  iapply (step_rs_wait m K c 6 _ (sem_rsRecv_at c 6) (owedFrom c 30) _ (amt_rSlotAt c 6 (rsRecvS c)) (mayWait_rsRecv c (fwd (1 + (6 : Fin 15).val) c))) $$ [HcRR6 HO HaRR6]
  · iframe Hrec HcRR6 HaRR6 Hlev; iexact HO
  iintro ⟨HO, HaRR6, Hrv6⟩
  unfold rsRecvPay
  sl_exec_parts
  iapply (wp_load 𝒱₀ (c : Thread nD τ) none Set.univ (m := rM) hsubR6) $$ Hrv6
  iintro Hrv6
  sl_exec_parts

  iapply (step_rs_wait m K c 7 _ (sem_rsRecv_at c 7) (owedFrom c 30) _ (amt_rSlotAt c 7 (rsRecvS c)) (mayWait_rsRecv c (fwd (1 + (7 : Fin 15).val) c))) $$ [HcRR7 HO HaRR7]
  · iframe Hrec HcRR7 HaRR7 Hlev; iexact HO
  iintro ⟨HO, HaRR7, Hrv7⟩
  unfold rsRecvPay
  sl_exec_parts
  iapply (wp_load 𝒱₀ (c : Thread nD τ) none Set.univ (m := rM) hsubR7) $$ Hrv7
  iintro Hrv7
  sl_exec_parts

  iapply (step_rs_wait m K c 8 _ (sem_rsRecv_at c 8) (owedFrom c 30) _ (amt_rSlotAt c 8 (rsRecvS c)) (mayWait_rsRecv c (fwd (1 + (8 : Fin 15).val) c))) $$ [HcRR8 HO HaRR8]
  · iframe Hrec HcRR8 HaRR8 Hlev; iexact HO
  iintro ⟨HO, HaRR8, Hrv8⟩
  unfold rsRecvPay
  sl_exec_parts
  iapply (wp_load 𝒱₀ (c : Thread nD τ) none Set.univ (m := rM) hsubR8) $$ Hrv8
  iintro Hrv8
  sl_exec_parts

  iapply (step_rs_wait m K c 9 _ (sem_rsRecv_at c 9) (owedFrom c 30) _ (amt_rSlotAt c 9 (rsRecvS c)) (mayWait_rsRecv c (fwd (1 + (9 : Fin 15).val) c))) $$ [HcRR9 HO HaRR9]
  · iframe Hrec HcRR9 HaRR9 Hlev; iexact HO
  iintro ⟨HO, HaRR9, Hrv9⟩
  unfold rsRecvPay
  sl_exec_parts
  iapply (wp_load 𝒱₀ (c : Thread nD τ) none Set.univ (m := rM) hsubR9) $$ Hrv9
  iintro Hrv9
  sl_exec_parts

  iapply (step_rs_wait m K c 10 _ (sem_rsRecv_at c 10) (owedFrom c 30) _ (amt_rSlotAt c 10 (rsRecvS c)) (mayWait_rsRecv c (fwd (1 + (10 : Fin 15).val) c))) $$ [HcRR10 HO HaRR10]
  · iframe Hrec HcRR10 HaRR10 Hlev; iexact HO
  iintro ⟨HO, HaRR10, Hrv10⟩
  unfold rsRecvPay
  sl_exec_parts
  iapply (wp_load 𝒱₀ (c : Thread nD τ) none Set.univ (m := rM) hsubR10) $$ Hrv10
  iintro Hrv10
  sl_exec_parts

  iapply (step_rs_wait m K c 11 _ (sem_rsRecv_at c 11) (owedFrom c 30) _ (amt_rSlotAt c 11 (rsRecvS c)) (mayWait_rsRecv c (fwd (1 + (11 : Fin 15).val) c))) $$ [HcRR11 HO HaRR11]
  · iframe Hrec HcRR11 HaRR11 Hlev; iexact HO
  iintro ⟨HO, HaRR11, Hrv11⟩
  unfold rsRecvPay
  sl_exec_parts
  iapply (wp_load 𝒱₀ (c : Thread nD τ) none Set.univ (m := rM) hsubR11) $$ Hrv11
  iintro Hrv11
  sl_exec_parts

  iapply (step_rs_wait m K c 12 _ (sem_rsRecv_at c 12) (owedFrom c 30) _ (amt_rSlotAt c 12 (rsRecvS c)) (mayWait_rsRecv c (fwd (1 + (12 : Fin 15).val) c))) $$ [HcRR12 HO HaRR12]
  · iframe Hrec HcRR12 HaRR12 Hlev; iexact HO
  iintro ⟨HO, HaRR12, Hrv12⟩
  unfold rsRecvPay
  sl_exec_parts
  iapply (wp_load 𝒱₀ (c : Thread nD τ) none Set.univ (m := rM) hsubR12) $$ Hrv12
  iintro Hrv12
  sl_exec_parts

  iapply (step_rs_wait m K c 13 _ (sem_rsRecv_at c 13) (owedFrom c 30) _ (amt_rSlotAt c 13 (rsRecvS c)) (mayWait_rsRecv c (fwd (1 + (13 : Fin 15).val) c))) $$ [HcRR13 HO HaRR13]
  · iframe Hrec HcRR13 HaRR13 Hlev; iexact HO
  iintro ⟨HO, HaRR13, Hrv13⟩
  unfold rsRecvPay
  sl_exec_parts
  iapply (wp_load 𝒱₀ (c : Thread nD τ) none Set.univ (m := rM) hsubR13) $$ Hrv13
  iintro Hrv13
  sl_exec_parts

  iapply (step_rs_wait m K c 14 _ (sem_rsRecv_at c 14) (owedFrom c 30) _ (amt_rSlotAt c 14 (rsRecvS c)) (mayWait_rsRecv c (fwd (1 + (14 : Fin 15).val) c))) $$ [HcRR14 HO HaRR14]
  · iframe Hrec HcRR14 HaRR14 Hlev; iexact HO
  iintro ⟨HO, HaRR14, Hrv14⟩
  unfold rsRecvPay
  sl_exec_parts
  iapply (wp_load 𝒱₀ (c : Thread nD τ) none Set.univ (m := rM) hsubR14) $$ Hrv14
  iintro Hrv14
  sl_exec_parts

  have hr2 : sound_core.sl.r_2 m c = outRows m c := by
    have e0 : sound_core.sl.v548 m c = accN m c 0 := by
      unfold sound_core.sl.v548 sound_core.sl.Hacc_1 sound_core.sl.v525; rw [readCov_head]; exact acc_start m c
    have e1 : sound_core.sl.v575 m c = accN m c 1 := by
      unfold sound_core.sl.v575 sound_core.sl.Hacc_2; rw [readCov_head, e0]; exact (pay3_eq _ _).trans (acc_step m c 0)
    have e2 : sound_core.sl.v602 m c = accN m c 2 := by
      unfold sound_core.sl.v602; rw [readCov_head, e1]; exact (pay4_eq _ _).trans (acc_step m c 1)
    have e3 : sound_core.sl.v629 m c = accN m c 3 := by
      unfold sound_core.sl.v629 sound_core.sl.r; rw [readCov_head, pay6_eq, e2]; exact (pay5_eq _ _).trans (acc_step m c 2)
    have e4 : sound_core.sl.v656 m c = accN m c 4 := by
      unfold sound_core.sl.v656 sound_core.sl.Hacc_5; rw [readCov_head, e3]; exact (pay7_eq _ _).trans (acc_step m c 3)
    have e5 : sound_core.sl.v683 m c = accN m c 5 := by
      unfold sound_core.sl.v683 sound_core.sl.Hacc_6; rw [readCov_head, e4]; exact (pay8_eq _ _).trans (acc_step m c 4)
    have e6 : sound_core.sl.v710 m c = accN m c 6 := by
      unfold sound_core.sl.v710 sound_core.sl.Hacc_7; rw [readCov_head, e5]; exact (pay9_eq _ _).trans (acc_step m c 5)
    have e7 : sound_core.sl.v m c = accN m c 7 := by
      unfold sound_core.sl.v; rw [readCov_head, e6]; exact (pay10_eq _ _).trans (acc_step m c 6)
    have e8 : sound_core.sl.v764 m c = accN m c 8 := by
      unfold sound_core.sl.v764; rw [readCov_head, e7]; exact (pay11_eq _ _).trans (acc_step m c 7)
    have e9 : sound_core.sl.v791 m c = accN m c 9 := by
      unfold sound_core.sl.v791 sound_core.sl.Hacc_10; rw [readCov_head, e8]; exact (pay12_eq _ _).trans (acc_step m c 8)
    have e10 : sound_core.sl.v818 m c = accN m c 10 := by
      unfold sound_core.sl.v818 sound_core.sl.Hacc_11; rw [readCov_head, e9]; exact (pay13_eq _ _).trans (acc_step m c 9)
    have e11 : sound_core.sl.v845 m c = accN m c 11 := by
      unfold sound_core.sl.v845 sound_core.sl.Hacc_12; rw [readCov_head, e10]; exact (pay14_eq _ _).trans (acc_step m c 10)
    have e12 : sound_core.sl.v872 m c = accN m c 12 := by
      unfold sound_core.sl.v872; rw [readCov_head, e11]; exact (pay15_eq _ _).trans (acc_step m c 11)
    have e13 : sound_core.sl.v899 m c = accN m c 13 := by
      unfold sound_core.sl.v899; rw [readCov_head, e12]; exact (pay16_eq _ _).trans (acc_step m c 12)
    have e14 : sound_core.sl.v926 m c = accN m c 14 := by
      unfold sound_core.sl.v926 sound_core.sl.r_1; rw [readCov_head, pay18_eq, e13]; exact (pay17_eq _ _).trans (acc_step m c 13)
    have e15 : sound_core.sl.v935 m c = accN m c 15 := by
      unfold sound_core.sl.v935 sound_core.sl.Hacc_16; rw [readCov_head, e14]; exact (pay19_eq _ _).trans (acc_step m c 14)
    unfold sound_core.sl.r_2
    rw [e15]
    exact acc_done m c
  unfold sound_core.sl.HoOwn_w1
  rw [hr2]
  ihave HoOwn := (congr_out c c _ (res m) (store_out m c fo)).1 $$ HoOwn
  ihave Hsh := (share_split c (res m)).1 $$ HoOwn
  icases Hsh with ⟨Hpc, HoRest⟩
  ihave Hpc := (Entails.of_eq (bigSep_fin15 _)) $$ Hpc
  icases Hpc with ⟨Hpc0, Hpc1, Hpc2, Hpc3, Hpc4, Hpc5, Hpc6, Hpc7, Hpc8, Hpc9, Hpc10, Hpc11, Hpc12, Hpc13, Hpc14⟩

  iapply (step_ag_send m K c _ 0 (dev31_eq c) _ _ (sem_agSend 0 inb_S16_S1_1) (sem_agRecv_own c) fq0 (owedFrom c 31) _) $$ [Hpc0 Hpo0 HO HtAS0 HtAR0]
  · iframe Hrec Hpc0 Hpo0 HtAS0 HtAR0; iexact HO
  iintro ⟨HcAS0, HO⟩
  sl_exec_parts

  iapply (step_ag_send m K c _ 1 (dev32_eq c) _ _ (sem_agSend 1 inb_S16_S1_2) (sem_agRecv_own c) fq1 (owedFrom c 32) _) $$ [Hpc1 Hpo1 HO HtAS1 HtAR1]
  · iframe Hrec Hpc1 Hpo1 HtAS1 HtAR1; iexact HO
  iintro ⟨HcAS1, HO⟩
  sl_exec_parts

  iapply (step_ag_send m K c _ 2 (dev33_eq c) _ _ (sem_agSend 2 inb_S16_S1_3) (sem_agRecv_own c) fq2 (owedFrom c 33) _) $$ [Hpc2 Hpo2 HO HtAS2 HtAR2]
  · iframe Hrec Hpc2 Hpo2 HtAS2 HtAR2; iexact HO
  iintro ⟨HcAS2, HO⟩
  sl_exec_parts

  iapply (step_ag_send m K c _ 3 (dev34_eq c) _ _ (sem_agSend 3 inb_S16_S1_4) (sem_agRecv_own c) fq3 (owedFrom c 34) _) $$ [Hpc3 Hpo3 HO HtAS3 HtAR3]
  · iframe Hrec Hpc3 Hpo3 HtAS3 HtAR3; iexact HO
  iintro ⟨HcAS3, HO⟩
  sl_exec_parts

  iapply (step_ag_send m K c _ 4 (dev35_eq c) _ _ (sem_agSend 4 inb_S16_S1_5) (sem_agRecv_own c) fq4 (owedFrom c 35) _) $$ [Hpc4 Hpo4 HO HtAS4 HtAR4]
  · iframe Hrec Hpc4 Hpo4 HtAS4 HtAR4; iexact HO
  iintro ⟨HcAS4, HO⟩
  sl_exec_parts

  iapply (step_ag_send m K c _ 5 (dev36_eq c) _ _ (sem_agSend 5 inb_S16_S1_6) (sem_agRecv_own c) fq5 (owedFrom c 36) _) $$ [Hpc5 Hpo5 HO HtAS5 HtAR5]
  · iframe Hrec Hpc5 Hpo5 HtAS5 HtAR5; iexact HO
  iintro ⟨HcAS5, HO⟩
  sl_exec_parts

  iapply (step_ag_send m K c _ 6 (dev37_eq c) _ _ (sem_agSend 6 inb_S16_S1_7) (sem_agRecv_own c) fq6 (owedFrom c 37) _) $$ [Hpc6 Hpo6 HO HtAS6 HtAR6]
  · iframe Hrec Hpc6 Hpo6 HtAS6 HtAR6; iexact HO
  iintro ⟨HcAS6, HO⟩
  sl_exec_parts

  iapply (step_ag_send m K c _ 7 (dev38_eq c) _ _ (sem_agSend 7 inb_S16_S1_8) (sem_agRecv_own c) fq7 (owedFrom c 38) _) $$ [Hpc7 Hpo7 HO HtAS7 HtAR7]
  · iframe Hrec Hpc7 Hpo7 HtAS7 HtAR7; iexact HO
  iintro ⟨HcAS7, HO⟩
  sl_exec_parts

  iapply (step_ag_send m K c _ 8 (dev39_eq c) _ _ (sem_agSend 8 inb_S16_S1_9) (sem_agRecv_own c) fq8 (owedFrom c 39) _) $$ [Hpc8 Hpo8 HO HtAS8 HtAR8]
  · iframe Hrec Hpc8 Hpo8 HtAS8 HtAR8; iexact HO
  iintro ⟨HcAS8, HO⟩
  sl_exec_parts

  iapply (step_ag_send m K c _ 9 (dev40_eq c) _ _ (sem_agSend 9 inb_S16_S1_10) (sem_agRecv_own c) fq9 (owedFrom c 40) _) $$ [Hpc9 Hpo9 HO HtAS9 HtAR9]
  · iframe Hrec Hpc9 Hpo9 HtAS9 HtAR9; iexact HO
  iintro ⟨HcAS9, HO⟩
  sl_exec_parts

  iapply (step_ag_send m K c _ 10 (dev41_eq c) _ _ (sem_agSend 10 inb_S16_S1_11) (sem_agRecv_own c) fq10 (owedFrom c 41) _) $$ [Hpc10 Hpo10 HO HtAS10 HtAR10]
  · iframe Hrec Hpc10 Hpo10 HtAS10 HtAR10; iexact HO
  iintro ⟨HcAS10, HO⟩
  sl_exec_parts

  iapply (step_ag_send m K c _ 11 (dev42_eq c) _ _ (sem_agSend 11 inb_S16_S1_12) (sem_agRecv_own c) fq11 (owedFrom c 42) _) $$ [Hpc11 Hpo11 HO HtAS11 HtAR11]
  · iframe Hrec Hpc11 Hpo11 HtAS11 HtAR11; iexact HO
  iintro ⟨HcAS11, HO⟩
  sl_exec_parts

  iapply (step_ag_send m K c _ 12 (dev43_eq c) _ _ (sem_agSend 12 inb_S16_S1_13) (sem_agRecv_own c) fq12 (owedFrom c 43) _) $$ [Hpc12 Hpo12 HO HtAS12 HtAR12]
  · iframe Hrec Hpc12 Hpo12 HtAS12 HtAR12; iexact HO
  iintro ⟨HcAS12, HO⟩
  sl_exec_parts

  iapply (step_ag_send m K c _ 13 (dev44_eq c) _ _ (sem_agSend 13 inb_S16_S1_14) (sem_agRecv_own c) fq13 (owedFrom c 44) _) $$ [Hpc13 Hpo13 HO HtAS13 HtAR13]
  · iframe Hrec Hpc13 Hpo13 HtAS13 HtAR13; iexact HO
  iintro ⟨HcAS13, HO⟩
  sl_exec_parts

  iapply (step_ag_send m K c _ 14 (dev45_eq c) _ _ (sem_agSend 14 inb_S16_S1_15) (sem_agRecv_own c) fq14 (owedFrom c 45) _) $$ [Hpc14 Hpo14 HO HtAS14 HtAR14]
  · iframe Hrec Hpc14 Hpo14 HtAS14 HtAR14; iexact HO
  iintro ⟨HcAS14, HO⟩
  sl_exec_parts
  rw [owedFrom_end c]

  iapply (step_ag_wait m K c 0 _ (sem_agRecv_at c 0) _ (amt_oRowsAt c 0 (agRecvS c))) $$ [HcAR0 HO HaAR0]
  · iframe Hrec HcAR0 HaAR0; iexact HO
  iintro ⟨HO, HaAR0, Hgv0⟩
  sl_exec_parts

  iapply (step_ag_wait m K c 1 _ (sem_agRecv_at c 1) _ (amt_oRowsAt c 1 (agRecvS c))) $$ [HcAR1 HO HaAR1]
  · iframe Hrec HcAR1 HaAR1; iexact HO
  iintro ⟨HO, HaAR1, Hgv1⟩
  sl_exec_parts

  iapply (step_ag_wait m K c 2 _ (sem_agRecv_at c 2) _ (amt_oRowsAt c 2 (agRecvS c))) $$ [HcAR2 HO HaAR2]
  · iframe Hrec HcAR2 HaAR2; iexact HO
  iintro ⟨HO, HaAR2, Hgv2⟩
  sl_exec_parts

  iapply (step_ag_wait m K c 3 _ (sem_agRecv_at c 3) _ (amt_oRowsAt c 3 (agRecvS c))) $$ [HcAR3 HO HaAR3]
  · iframe Hrec HcAR3 HaAR3; iexact HO
  iintro ⟨HO, HaAR3, Hgv3⟩
  sl_exec_parts

  iapply (step_ag_wait m K c 4 _ (sem_agRecv_at c 4) _ (amt_oRowsAt c 4 (agRecvS c))) $$ [HcAR4 HO HaAR4]
  · iframe Hrec HcAR4 HaAR4; iexact HO
  iintro ⟨HO, HaAR4, Hgv4⟩
  sl_exec_parts

  iapply (step_ag_wait m K c 5 _ (sem_agRecv_at c 5) _ (amt_oRowsAt c 5 (agRecvS c))) $$ [HcAR5 HO HaAR5]
  · iframe Hrec HcAR5 HaAR5; iexact HO
  iintro ⟨HO, HaAR5, Hgv5⟩
  sl_exec_parts

  iapply (step_ag_wait m K c 6 _ (sem_agRecv_at c 6) _ (amt_oRowsAt c 6 (agRecvS c))) $$ [HcAR6 HO HaAR6]
  · iframe Hrec HcAR6 HaAR6; iexact HO
  iintro ⟨HO, HaAR6, Hgv6⟩
  sl_exec_parts

  iapply (step_ag_wait m K c 7 _ (sem_agRecv_at c 7) _ (amt_oRowsAt c 7 (agRecvS c))) $$ [HcAR7 HO HaAR7]
  · iframe Hrec HcAR7 HaAR7; iexact HO
  iintro ⟨HO, HaAR7, Hgv7⟩
  sl_exec_parts

  iapply (step_ag_wait m K c 8 _ (sem_agRecv_at c 8) _ (amt_oRowsAt c 8 (agRecvS c))) $$ [HcAR8 HO HaAR8]
  · iframe Hrec HcAR8 HaAR8; iexact HO
  iintro ⟨HO, HaAR8, Hgv8⟩
  sl_exec_parts

  iapply (step_ag_wait m K c 9 _ (sem_agRecv_at c 9) _ (amt_oRowsAt c 9 (agRecvS c))) $$ [HcAR9 HO HaAR9]
  · iframe Hrec HcAR9 HaAR9; iexact HO
  iintro ⟨HO, HaAR9, Hgv9⟩
  sl_exec_parts

  iapply (step_ag_wait m K c 10 _ (sem_agRecv_at c 10) _ (amt_oRowsAt c 10 (agRecvS c))) $$ [HcAR10 HO HaAR10]
  · iframe Hrec HcAR10 HaAR10; iexact HO
  iintro ⟨HO, HaAR10, Hgv10⟩
  sl_exec_parts

  iapply (step_ag_wait m K c 11 _ (sem_agRecv_at c 11) _ (amt_oRowsAt c 11 (agRecvS c))) $$ [HcAR11 HO HaAR11]
  · iframe Hrec HcAR11 HaAR11; iexact HO
  iintro ⟨HO, HaAR11, Hgv11⟩
  sl_exec_parts

  iapply (step_ag_wait m K c 12 _ (sem_agRecv_at c 12) _ (amt_oRowsAt c 12 (agRecvS c))) $$ [HcAR12 HO HaAR12]
  · iframe Hrec HcAR12 HaAR12; iexact HO
  iintro ⟨HO, HaAR12, Hgv12⟩
  sl_exec_parts

  iapply (step_ag_wait m K c 13 _ (sem_agRecv_at c 13) _ (amt_oRowsAt c 13 (agRecvS c))) $$ [HcAR13 HO HaAR13]
  · iframe Hrec HcAR13 HaAR13; iexact HO
  iintro ⟨HO, HaAR13, Hgv13⟩
  sl_exec_parts

  iapply (step_ag_wait m K c 14 _ (sem_agRecv_at c 14) _ (amt_oRowsAt c 14 (agRecvS c))) $$ [HcAR14 HO HaAR14]
  · iframe Hrec HcAR14 HaAR14; iexact HO
  iintro ⟨HO, HaAR14, Hgv14⟩
  sl_exec_parts
  iapply (step_rs_send_wait m K c 0 _ (sem_rsSend 0 inb_S16_S1_1) _ (amt_pSlice c 0 (rsRecvS c))) $$ [HcRS0 HO HaRS0]
  · iframe Hrec HcRS0 HaRS0; iexact HO
  iintro ⟨HO, HaRS0, Hp0⟩
  sl_exec_parts
  iapply (step_rs_send_wait m K c 1 _ (sem_rsSend 1 inb_S16_S1_2) _ (amt_pSlice c 1 (rsRecvS c))) $$ [HcRS1 HO HaRS1]
  · iframe Hrec HcRS1 HaRS1; iexact HO
  iintro ⟨HO, HaRS1, Hp1⟩
  sl_exec_parts
  iapply (step_rs_send_wait m K c 2 _ (sem_rsSend 2 inb_S16_S1_3) _ (amt_pSlice c 2 (rsRecvS c))) $$ [HcRS2 HO HaRS2]
  · iframe Hrec HcRS2 HaRS2; iexact HO
  iintro ⟨HO, HaRS2, Hp2⟩
  sl_exec_parts
  iapply (step_rs_send_wait m K c 3 _ (sem_rsSend 3 inb_S16_S1_4) _ (amt_pSlice c 3 (rsRecvS c))) $$ [HcRS3 HO HaRS3]
  · iframe Hrec HcRS3 HaRS3; iexact HO
  iintro ⟨HO, HaRS3, Hp3⟩
  sl_exec_parts
  iapply (step_rs_send_wait m K c 4 _ (sem_rsSend 4 inb_S16_S1_5) _ (amt_pSlice c 4 (rsRecvS c))) $$ [HcRS4 HO HaRS4]
  · iframe Hrec HcRS4 HaRS4; iexact HO
  iintro ⟨HO, HaRS4, Hp4⟩
  sl_exec_parts
  iapply (step_rs_send_wait m K c 5 _ (sem_rsSend 5 inb_S16_S1_6) _ (amt_pSlice c 5 (rsRecvS c))) $$ [HcRS5 HO HaRS5]
  · iframe Hrec HcRS5 HaRS5; iexact HO
  iintro ⟨HO, HaRS5, Hp5⟩
  sl_exec_parts
  iapply (step_rs_send_wait m K c 6 _ (sem_rsSend 6 inb_S16_S1_7) _ (amt_pSlice c 6 (rsRecvS c))) $$ [HcRS6 HO HaRS6]
  · iframe Hrec HcRS6 HaRS6; iexact HO
  iintro ⟨HO, HaRS6, Hp6⟩
  sl_exec_parts
  iapply (step_rs_send_wait m K c 7 _ (sem_rsSend 7 inb_S16_S1_8) _ (amt_pSlice c 7 (rsRecvS c))) $$ [HcRS7 HO HaRS7]
  · iframe Hrec HcRS7 HaRS7; iexact HO
  iintro ⟨HO, HaRS7, Hp7⟩
  sl_exec_parts
  iapply (step_rs_send_wait m K c 8 _ (sem_rsSend 8 inb_S16_S1_9) _ (amt_pSlice c 8 (rsRecvS c))) $$ [HcRS8 HO HaRS8]
  · iframe Hrec HcRS8 HaRS8; iexact HO
  iintro ⟨HO, HaRS8, Hp8⟩
  sl_exec_parts
  iapply (step_rs_send_wait m K c 9 _ (sem_rsSend 9 inb_S16_S1_10) _ (amt_pSlice c 9 (rsRecvS c))) $$ [HcRS9 HO HaRS9]
  · iframe Hrec HcRS9 HaRS9; iexact HO
  iintro ⟨HO, HaRS9, Hp9⟩
  sl_exec_parts
  iapply (step_rs_send_wait m K c 10 _ (sem_rsSend 10 inb_S16_S1_11) _ (amt_pSlice c 10 (rsRecvS c))) $$ [HcRS10 HO HaRS10]
  · iframe Hrec HcRS10 HaRS10; iexact HO
  iintro ⟨HO, HaRS10, Hp10⟩
  sl_exec_parts
  iapply (step_rs_send_wait m K c 11 _ (sem_rsSend 11 inb_S16_S1_12) _ (amt_pSlice c 11 (rsRecvS c))) $$ [HcRS11 HO HaRS11]
  · iframe Hrec HcRS11 HaRS11; iexact HO
  iintro ⟨HO, HaRS11, Hp11⟩
  sl_exec_parts
  iapply (step_rs_send_wait m K c 12 _ (sem_rsSend 12 inb_S16_S1_13) _ (amt_pSlice c 12 (rsRecvS c))) $$ [HcRS12 HO HaRS12]
  · iframe Hrec HcRS12 HaRS12; iexact HO
  iintro ⟨HO, HaRS12, Hp12⟩
  sl_exec_parts
  iapply (step_rs_send_wait m K c 13 _ (sem_rsSend 13 inb_S16_S1_14) _ (amt_pSlice c 13 (rsRecvS c))) $$ [HcRS13 HO HaRS13]
  · iframe Hrec HcRS13 HaRS13; iexact HO
  iintro ⟨HO, HaRS13, Hp13⟩
  sl_exec_parts
  iapply (step_rs_send_wait m K c 14 _ (sem_rsSend 14 inb_S16_S1_15) _ (amt_pSlice c 14 (rsRecvS c))) $$ [HcRS14 HO HaRS14]
  · iframe Hrec HcRS14 HaRS14; iexact HO
  iintro ⟨HO, HaRS14, Hp14⟩
  sl_exec_parts
  iapply (step_ag_send_wait m K c 0 _ (sem_agSend 0 inb_S16_S1_1) _ (amt_oRows c (agRecvS c))) $$ [HcAS0 HO HaAS0]
  · iframe Hrec HcAS0 HaAS0; iexact HO
  iintro ⟨HO, HaAS0, Hpc0⟩
  sl_exec_parts
  iapply (step_ag_send_wait m K c 1 _ (sem_agSend 1 inb_S16_S1_2) _ (amt_oRows c (agRecvS c))) $$ [HcAS1 HO HaAS1]
  · iframe Hrec HcAS1 HaAS1; iexact HO
  iintro ⟨HO, HaAS1, Hpc1⟩
  sl_exec_parts
  iapply (step_ag_send_wait m K c 2 _ (sem_agSend 2 inb_S16_S1_3) _ (amt_oRows c (agRecvS c))) $$ [HcAS2 HO HaAS2]
  · iframe Hrec HcAS2 HaAS2; iexact HO
  iintro ⟨HO, HaAS2, Hpc2⟩
  sl_exec_parts
  iapply (step_ag_send_wait m K c 3 _ (sem_agSend 3 inb_S16_S1_4) _ (amt_oRows c (agRecvS c))) $$ [HcAS3 HO HaAS3]
  · iframe Hrec HcAS3 HaAS3; iexact HO
  iintro ⟨HO, HaAS3, Hpc3⟩
  sl_exec_parts
  iapply (step_ag_send_wait m K c 4 _ (sem_agSend 4 inb_S16_S1_5) _ (amt_oRows c (agRecvS c))) $$ [HcAS4 HO HaAS4]
  · iframe Hrec HcAS4 HaAS4; iexact HO
  iintro ⟨HO, HaAS4, Hpc4⟩
  sl_exec_parts
  iapply (step_ag_send_wait m K c 5 _ (sem_agSend 5 inb_S16_S1_6) _ (amt_oRows c (agRecvS c))) $$ [HcAS5 HO HaAS5]
  · iframe Hrec HcAS5 HaAS5; iexact HO
  iintro ⟨HO, HaAS5, Hpc5⟩
  sl_exec_parts
  iapply (step_ag_send_wait m K c 6 _ (sem_agSend 6 inb_S16_S1_7) _ (amt_oRows c (agRecvS c))) $$ [HcAS6 HO HaAS6]
  · iframe Hrec HcAS6 HaAS6; iexact HO
  iintro ⟨HO, HaAS6, Hpc6⟩
  sl_exec_parts
  iapply (step_ag_send_wait m K c 7 _ (sem_agSend 7 inb_S16_S1_8) _ (amt_oRows c (agRecvS c))) $$ [HcAS7 HO HaAS7]
  · iframe Hrec HcAS7 HaAS7; iexact HO
  iintro ⟨HO, HaAS7, Hpc7⟩
  sl_exec_parts
  iapply (step_ag_send_wait m K c 8 _ (sem_agSend 8 inb_S16_S1_9) _ (amt_oRows c (agRecvS c))) $$ [HcAS8 HO HaAS8]
  · iframe Hrec HcAS8 HaAS8; iexact HO
  iintro ⟨HO, HaAS8, Hpc8⟩
  sl_exec_parts
  iapply (step_ag_send_wait m K c 9 _ (sem_agSend 9 inb_S16_S1_10) _ (amt_oRows c (agRecvS c))) $$ [HcAS9 HO HaAS9]
  · iframe Hrec HcAS9 HaAS9; iexact HO
  iintro ⟨HO, HaAS9, Hpc9⟩
  sl_exec_parts
  iapply (step_ag_send_wait m K c 10 _ (sem_agSend 10 inb_S16_S1_11) _ (amt_oRows c (agRecvS c))) $$ [HcAS10 HO HaAS10]
  · iframe Hrec HcAS10 HaAS10; iexact HO
  iintro ⟨HO, HaAS10, Hpc10⟩
  sl_exec_parts
  iapply (step_ag_send_wait m K c 11 _ (sem_agSend 11 inb_S16_S1_12) _ (amt_oRows c (agRecvS c))) $$ [HcAS11 HO HaAS11]
  · iframe Hrec HcAS11 HaAS11; iexact HO
  iintro ⟨HO, HaAS11, Hpc11⟩
  sl_exec_parts
  iapply (step_ag_send_wait m K c 12 _ (sem_agSend 12 inb_S16_S1_13) _ (amt_oRows c (agRecvS c))) $$ [HcAS12 HO HaAS12]
  · iframe Hrec HcAS12 HaAS12; iexact HO
  iintro ⟨HO, HaAS12, Hpc12⟩
  sl_exec_parts
  iapply (step_ag_send_wait m K c 13 _ (sem_agSend 13 inb_S16_S1_14) _ (amt_oRows c (agRecvS c))) $$ [HcAS13 HO HaAS13]
  · iframe Hrec HcAS13 HaAS13; iexact HO
  iintro ⟨HO, HaAS13, Hpc13⟩
  sl_exec_parts
  iapply (step_ag_send_wait m K c 14 _ (sem_agSend 14 inb_S16_S1_15) _ (amt_oRows c (agRecvS c))) $$ [HcAS14 HO HaAS14]
  · iframe Hrec HcAS14 HaAS14; iexact HO
  iintro ⟨HO, HaAS14, Hpc14⟩
  sl_exec_parts
  unfold rsSendPay agSendPay agRecvPay

  imod (close_all m c K) $$ [HaU1 HaU2 HaU3 HaU4 HaRS0 HaAS0 HaRR0 HaAR0 HaRS1 HaAS1 HaRR1 HaAR1 HaRS2 HaAS2 HaRR2 HaAR2 HaRS3 HaAS3 HaRR3 HaAR3 HaRS4 HaAS4 HaRR4 HaAR4 HaRS5 HaAS5 HaRR5 HaAR5 HaRS6 HaAS6 HaRR6 HaAR6 HaRS7 HaAS7 HaRR7 HaAR7 HaRS8 HaAS8 HaRR8 HaAR8 HaRS9 HaAS9 HaRR9 HaAR9 HaRS10 HaAS10 HaRR10 HaAR10 HaRS11 HaAS11 HaRR11 HaAR11 HaRS12 HaAS12 HaRR12 HaAR12 HaRS13 HaAS13 HaRR13 HaAR13 HaRS14 HaAS14 HaRR14 HaAR14] with Hz
  · iframe Hrec HaU1 HaU2 HaU3 HaU4
    iapply (Entails.of_eq (bigSep_fin15 _).symm); iframe

  ihave HP := (join_part_ex c) $$ [HpOwn Hp0 Hp1 Hp2 Hp3 Hp4 Hp5 Hp6 Hp7 Hp8 Hp9 Hp10 Hp11 Hp12 Hp13 Hp14]
  · isplitl [HpOwn]; · iexists _; iexact HpOwn
    iapply (Entails.of_eq (bigSep_fin15 _).symm)
    isplitl [Hp0]; · iexists _; iexact Hp0
    isplitl [Hp1]; · iexists _; iexact Hp1
    isplitl [Hp2]; · iexists _; iexact Hp2
    isplitl [Hp3]; · iexists _; iexact Hp3
    isplitl [Hp4]; · iexists _; iexact Hp4
    isplitl [Hp5]; · iexists _; iexact Hp5
    isplitl [Hp6]; · iexists _; iexact Hp6
    isplitl [Hp7]; · iexists _; iexact Hp7
    isplitl [Hp8]; · iexists _; iexact Hp8
    isplitl [Hp9]; · iexists _; iexact Hp9
    isplitl [Hp10]; · iexists _; iexact Hp10
    isplitl [Hp11]; · iexists _; iexact Hp11
    isplitl [Hp12]; · iexists _; iexact Hp12
    isplitl [Hp13]; · iexists _; iexact Hp13
    iexists _; iexact Hp14
  ihave HR := (join_recv_ex c) $$ [HrOwn Hrv0 Hrv1 Hrv2 Hrv3 Hrv4 Hrv5 Hrv6 Hrv7 Hrv8 Hrv9 Hrv10 Hrv11 Hrv12 Hrv13 Hrv14]
  · isplitl [HrOwn]; · iexists _; iexact HrOwn
    iapply (Entails.of_eq (bigSep_fin15 _).symm)
    isplitl [Hrv0]; · iexists _; iexact Hrv0
    isplitl [Hrv1]; · iexists _; iexact Hrv1
    isplitl [Hrv2]; · iexists _; iexact Hrv2
    isplitl [Hrv3]; · iexists _; iexact Hrv3
    isplitl [Hrv4]; · iexists _; iexact Hrv4
    isplitl [Hrv5]; · iexists _; iexact Hrv5
    isplitl [Hrv6]; · iexists _; iexact Hrv6
    isplitl [Hrv7]; · iexists _; iexact Hrv7
    isplitl [Hrv8]; · iexists _; iexact Hrv8
    isplitl [Hrv9]; · iexists _; iexact Hrv9
    isplitl [Hrv10]; · iexists _; iexact Hrv10
    isplitl [Hrv11]; · iexists _; iexact Hrv11
    isplitl [Hrv12]; · iexists _; iexact Hrv12
    isplitl [Hrv13]; · iexists _; iexact Hrv13
    iexists _; iexact Hrv14

  ihave HoOwn := (share_split c (res m)).2 $$ [Hpc0 Hpc1 Hpc2 Hpc3 Hpc4 Hpc5 Hpc6 Hpc7 Hpc8 Hpc9 Hpc10 Hpc11 Hpc12 Hpc13 Hpc14 HoRest]
  · isplitr [HoRest]
    · iapply (Entails.of_eq (bigSep_fin15 _).symm); iframe
    · iexact HoRest
  ihave HOut := (split_out c (res m)).2 $$ [HoOwn Hgv0 Hgv1 Hgv2 Hgv3 Hgv4 Hgv5 Hgv6 Hgv7 Hgv8 Hgv9 Hgv10 Hgv11 Hgv12 Hgv13 Hgv14]
  · isplitl [HoOwn]; · iexact HoOwn
    iapply (Entails.of_eq (bigSep_fin15 _).symm); iframe
  sl_exec_parts
  sl_step
  iapply Hk
  unfold corePost Φ₁ scratch
  isplitl [HP HR Hacc Hz]
  · isplitl [HP HR Hacc]
    · isplitl [HP]; · iexact HP
      isplitl [HR]; · iexact HR
      iexists _; iexact Hacc
    · iexact Hz
  isplitl [HO]; · iexists _; iexact HO
  isplitl [Ha]; · iexact Ha
  isplitl [Hb]; · iexact Hb
  iexact HOut

end Cert.KernelIdeal.Dist
end
-- ==== Proof.Body.lean ====
import proofs.«900887_g7700000000000888_dist_matmul_k_i_m512_n512_k256_v7x_i16_bf16_1_alg».proof.Proof.BodyCore
import proofs.«900887_g7700000000000888_dist_matmul_k_i_m512_n512_k256_v7x_i16_bf16_1_alg».proof.Proof.Gen.KernelIdeal.Points

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem fin_N (t : Fin cfg0.N) : t = t0_0 := fin_N0 t

omit [FloatOps F] in
theorem bigSep_sep4 (A B C D : Fin 15 → sProp 𝕄) :
    bigSep Finset.univ (fun r => iprop(A r ∗ B r ∗ C r ∗ D r))
      = iprop(bigSep Finset.univ A ∗ bigSep Finset.univ B ∗ bigSep Finset.univ C ∗ bigSep Finset.univ D) := by
  rw [bigSep_sep', bigSep_sep', bigSep_sep']

omit [FloatOps F] in
theorem bigSep_sep5 (A B C D E : Fin 15 → sProp 𝕄) :
    bigSep Finset.univ (fun r => iprop(A r ∗ B r ∗ C r ∗ D r ∗ E r))
      = iprop(bigSep Finset.univ A ∗ bigSep Finset.univ B ∗ bigSep Finset.univ C ∗ bigSep Finset.univ D
          ∗ bigSep Finset.univ E) := by
  rw [bigSep_sep', bigSep_sep', bigSep_sep', bigSep_sep']

set_option maxRecDepth 4000 in

def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ
    ∗ stg c cc0_stg0_0 (aOf m c) ∗ stg c cc0_stg1_0 (bOf m c) ∗ stg c cc0_stg2_0 (res m))

set_option maxHeartbeats 4000000 in
set_option maxRecDepth 65536 in
theorem sound_body (c : Dev nD) :
    bodyPre' m ρ c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6) (fun _ => bodyPost m ρ c) := by
  unfold bodyPre' Φ₀ start ghost credits scratch payToks
  iintro ⟨⟨⟨⟨%K, Hrec, Hpos, Htok⟩, ⟨HcB, Hcr⟩, Hlev⟩, ⟨%fp, Hp⟩, ⟨%fr, Hr⟩, ⟨%fc, Hc⟩⟩, Ho,
    ⟨%d0, %fa, %hfa0, Ha⟩, ⟨%d1, %fb, %hfb0, Hb⟩, ⟨%d2, %fo, %hfo0, Hout⟩⟩
  have hfa : fa = aOf m c := by rw [hfa0]; unfold Dat.before; rw [if_pos (fetch0_0 t0_0)]; rfl
  have hfb : fb = bOf m c := by rw [hfb0]; unfold Dat.before; rw [if_pos (fetch0_1 t0_0)]; rfl
  unfold Dat.owesAt Pipeline.owesWithin
  icases Ho with ⟨%W, %hW, HO⟩
  rw [show (dats m ρ 0 c).owed t0_0.castSucc = O₀ c from rfl]

  ihave Hpos := (positions_split c).1 $$ Hpos
  icases Hpos with ⟨HpB, Hp1, Hp2, Hp3, Hp4, Hpr⟩
  ihave Hpr := (Entails.of_eq (bigSep_sep4 _ _ _ _)) $$ Hpr
  icases Hpr with ⟨HpS1, HpS2, HpV1, HpV2⟩

  ihave Htok := (Entails.of_eq (bigSep_sep5 _ _ _ _ _)) $$ Htok
  icases Htok with ⟨Tb, Ts, Tr, Tas, Tar⟩

  ihave Hcr := (Entails.of_eq (bigSep_sep' _ _ _)) $$ Hcr
  icases Hcr with ⟨Hc1, Hc2⟩

  ihave Hr := (split_recv_peel c fr).1 $$ Hr
  icases Hr with ⟨Hr0, Hrs⟩
  ihave Hout := (split_out c fo).1 $$ Hout
  icases Hout with ⟨Ho0, Hos⟩
  iapply (sound_core m K c (fun _ => bodyPost m ρ c) W fa fb fo fp fr fc hfa hfb)
  isplitr [Hrec Hlev HO Tb Ts Tr Tas Tar HpB HpS1 HpV1 HpS2 HpV2 Hp1 Hp2 Hp3 Hp4 HcB Hc1 Hc2 Ha Hb Hp Hc Hr0 Hrs Ho0 Hos]
  ·
    iintro Hpost
    unfold corePost bodyPost Dat.owesAt Pipeline.owesWithin
    icases Hpost with ⟨HΦ, ⟨%W', HO'⟩, Ha', Hb', Ho'⟩
    rw [show (dats m ρ 0 c).owed t0_0.succ = 0 from rfl]
    isplitl [HΦ]; · iexact HΦ
    isplitl [HO']
    · iexists W'
      isplitr; · ipureintro; exact fun _ _ => Or.inl trivial
      iexact HO'
    isplitl [Ha']
    · iexists _; isplitr; · (ipureintro; rfl)
      iexact Ha'
    isplitl [Hb']
    · iexists _; isplitr; · (ipureintro; rfl)
      iexact Hb'
    iexists _; isplitr; · (ipureintro; rfl)
    iexact Ho'
  iframe

set_option maxHeartbeats 4000000 in
set_option maxRecDepth 65536 in

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6) (fun _ => bodyPost m ρ c)
  exact sound_body m ρ c

end Cert.KernelIdeal.Dist

end
-- ==== Proof.LaunchGhost.lean ====
import proofs.«900887_g7700000000000888_dist_matmul_k_i_m512_n512_k256_v7x_i16_bf16_1_alg».proof.Proof.Inv
import proofs.«900887_g7700000000000888_dist_matmul_k_i_m512_n512_k256_v7x_i16_bf16_1_alg».proof.Proof.Tables

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem ownSemFacts : Pipeline.OwnSemFacts cfg0.spec osem := by decide +kernel

theorem csem_zero : csem (0 : Fin 65) = (SemLoc.reg barS : SemLoc sig) := rfl

theorem csem_pos : ∀ k : Fin 65, k.val ≠ 0 →
    csem k = (SemLoc.dma (⟨k.val + 2, by have := k.isLt; show k.val + 2 < 67; omega⟩ : DmaSem sig) : SemLoc sig) := by
  decide +kernel

theorem csem_injective : Function.Injective (csem : Fin 65 → SemLoc sig) := by
  intro a b h
  by_cases ha : a.val = 0
  · by_cases hb : b.val = 0
    · exact Fin.ext (ha.trans hb.symm)
    · obtain rfl : a = 0 := Fin.ext ha
      rw [csem_zero, csem_pos b hb] at h
      cases h
  · by_cases hb : b.val = 0
    · obtain rfl : b = 0 := Fin.ext hb
      rw [csem_zero, csem_pos a ha] at h
      cases h
    · rw [csem_pos a ha, csem_pos b hb] at h
      have hv : a.val + 2 = b.val + 2 := congrArg Fin.val (SemLoc.dma.inj h)
      exact Fin.ext (by omega)

theorem kcell_injective : Function.Injective (kcell : Dev nD × Fin 65 → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]

def protoCells : Finset (GSem nD τ sig) := Finset.univ.map ⟨kcell, kcell_injective⟩

def tokOf (x : Dev nD × Fin 15 × Fin 5) : GSem nD τ sig × ℕ × Fin 16 :=
  match x.2.2 with
  | 0 => (barCell x.1, 0, sIx x.2.1)
  | 1 => (rsSendCell x.1 (sIx x.2.1), 0, 0)
  | 2 => (rsRecvCell x.1 (fwd (1 + x.2.1.val) x.1), 0, 0)
  | 3 => (agSendCell x.1 (sIx x.2.1), 0, 0)
  | 4 => (agRecvCell x.1 (fwd (1 + x.2.1.val) x.1), 0, 0)

def tokCode (x : GSem nD τ sig × ℕ × Fin 16) : ℕ :=
  match x.1.2 with
  | .reg _ => x.2.2.val
  | .dma q => 100 + q.val

def codeOf (y : Dev nD) (r : Fin 15) (j : Fin 5) : ℕ :=
  if j.val = 0 then 1 + r.val
  else if j.val = 1 then 100 + (3 + (1 + r.val))
  else if j.val = 2 then 100 + (19 + (y.val + (1 + r.val)) % 16)
  else if j.val = 3 then 100 + (35 + (1 + r.val))
  else 100 + (51 + (y.val + (1 + r.val)) % 16)

theorem tokCode_tokOf (y : Dev nD) (r : Fin 15) (j : Fin 5) : tokCode (tokOf (y, r, j)) = codeOf y r j := by
  fin_cases j <;> rfl

theorem tokOf_injective : Function.Injective (tokOf : Dev nD × Fin 15 × Fin 5 → GSem nD τ sig × ℕ × Fin 16) := by
  rintro ⟨y, r, j⟩ ⟨y', r', j'⟩ h
  have h1 : y = y' := by
    have := congrArg (fun x : GSem nD τ sig × ℕ × Fin 16 => x.1.1.1) h
    fin_cases j <;> fin_cases j' <;> exact this
  subst h1
  have h2 : codeOf y r j = codeOf y r' j' := by
    rw [← tokCode_tokOf, ← tokCode_tokOf]; exact congrArg tokCode h
  have hy : y.val < 16 := y.isLt
  have hr : r.val < 15 := r.isLt
  have hr' : r'.val < 15 := r'.isLt
  have hj : j.val < 5 := j.isLt
  have hj' : j'.val < 5 := j'.isLt
  unfold codeOf at h2
  have h3 : j.val = j'.val ∧ r.val = r'.val := by split_ifs at h2 <;> omega
  obtain rfl : j = j' := Fin.ext h3.1
  obtain rfl : r = r' := Fin.ext h3.2
  rfl

def protoToks : Finset (GSem nD τ sig × ℕ × Fin 16) := Finset.univ.map ⟨tokOf, tokOf_injective⟩

def u₀ : UU :=
  (initOf (Pipeline.cells cfgs cellOf_inj) (Pipeline.launchToks cfgs cellOf_inj), initOf protoCells protoToks)

def ownToks (y : Dev nD) (r : Fin 15) : sProp 𝕄 :=
  iprop(dutyTok ER (barCell y) 0 (sIx r)
    ∗ dutyTok ER (rsSendCell y (sIx r)) 0 0 ∗ dutyTok ER (rsRecvCell y (fwd (1 + r.val) y)) 0 0
    ∗ dutyTok ER (agSendCell y (sIx r)) 0 0 ∗ dutyTok ER (agRecvCell y (fwd (1 + r.val) y)) 0 0)

def G (c : Dev nD) : sProp 𝕄 :=
  iprop((bigSep Finset.univ fun k : Fin 65 => roundState ER (sched m) (kcell (c, k)) 0)
    ∗ (bigSep Finset.univ fun k : Fin 65 => iprop(atPos ER (kcell (c, k)) 0 ∅ 0 ∗ reached ER (kcell (c, k)) 0))
    ∗ bigSep Finset.univ fun r : Fin 15 => ownToks c r)

def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem bigSep_fin65 (Φ : Fin 65 → sProp 𝕄) :
    bigSep Finset.univ Φ = iprop(Φ 0 ∗ bigSep Finset.univ fun k : Fin 64 => Φ ⟨k.val + 1, by have := k.isLt; omega⟩) := by
  rw [Fin.univ_succ, Finset.cons_eq_insert, bigSep_insert (by simp), bigSep_map]; rfl

theorem fund_proto : BI.own (ER (initOf protoCells protoToks)) ⊢ (|==> bigSep Finset.univ (G m) : sProp 𝕄) := by
  have hX (Φ : GSem nD τ sig → sProp 𝕄) :
      bigSep protoCells Φ = bigSep Finset.univ fun c : Dev nD => bigSep Finset.univ fun k : Fin 65 => Φ (kcell (c, k)) := by
    unfold protoCells; rw [bigSep_map, bigSep_univ_prod]; rfl
  have hT : bigSep protoToks (fun x => (dutyTok ER x.1 x.2.1 x.2.2 : sProp 𝕄))
      = bigSep Finset.univ fun c : Dev nD => bigSep Finset.univ fun r : Fin 15 => ownToks c r := by
    unfold protoToks; rw [bigSep_map, bigSep_univ_prod]
    refine bigSep_congr fun c _ => ?_
    rw [bigSep_univ_prod]
    exact bigSep_congr fun r _ => by unfold ownToks; rw [bigSep_fin5]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀_proto : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_proto m) $$ HX with HG
  imodintro
  isplitl [HP] <;> iassumption

def opp (r : Fin 15) : Fin 15 := ⟨14 - r.val, by omega⟩

@[simp] theorem opp_val (r : Fin 15) : (opp r).val = 14 - r.val := rfl

theorem opp_opp (r : Fin 15) : opp (opp r) = r := by
  have hr : r.val < 15 := r.isLt
  apply Fin.ext
  simp only [opp_val]
  omega

theorem fwd_opp_fwd (r : Fin 15) (c : Dev nD) : fwd (1 + (opp r).val) (fwd (1 + r.val) c) = c := by
  have hc : c.val < 16 := c.isLt
  have hr : r.val < 15 := r.isLt
  apply Fin.ext
  simp only [fwd_val, opp_val]
  omega

def shiftE : Dev nD × Fin 15 ≃ Dev nD × Fin 15 where
  toFun p := (fwd (1 + p.2.val) p.1, p.2)
  invFun p := (bwd (1 + p.2.val) p.1, p.2)
  left_inv := by
    rintro ⟨c, r⟩
    show (bwd (1 + r.val) (fwd (1 + r.val) c), r) = (c, r)
    rw [bwd_fwd]
  right_inv := by
    rintro ⟨c, r⟩
    show (fwd (1 + r.val) (bwd (1 + r.val) c), r) = (c, r)
    rw [fwd_bwd]

def flipE : Dev nD × Fin 15 ≃ Dev nD × Fin 15 where
  toFun p := (fwd (1 + p.2.val) p.1, opp p.2)
  invFun p := (fwd (1 + p.2.val) p.1, opp p.2)
  left_inv := by
    rintro ⟨c, r⟩
    show (fwd (1 + (opp r).val) (fwd (1 + r.val) c), opp (opp r)) = (c, r)
    rw [fwd_opp_fwd, opp_opp]
  right_inv := by
    rintro ⟨c, r⟩
    show (fwd (1 + (opp r).val) (fwd (1 + r.val) c), opp (opp r)) = (c, r)
    rw [fwd_opp_fwd, opp_opp]

theorem toks_around :
    (bigSep Finset.univ fun c : Dev nD => bigSep Finset.univ fun r : Fin 15 => (ownToks c r : sProp 𝕄))
      ⊢ bigSep Finset.univ fun c : Dev nD => bigSep Finset.univ fun r : Fin 15 => payToks c r := by
  have eO : (bigSep Finset.univ fun c : Dev nD => bigSep Finset.univ fun r : Fin 15 => (ownToks c r : sProp 𝕄))
      = bigSep Finset.univ fun p : Dev nD × Fin 15 => ownToks p.1 p.2 :=
    (bigSep_univ_prod (fun p : Dev nD × Fin 15 => (ownToks p.1 p.2 : sProp 𝕄))).symm
  have eP : (bigSep Finset.univ fun c : Dev nD => bigSep Finset.univ fun r : Fin 15 => (payToks c r : sProp 𝕄))
      = bigSep Finset.univ fun p : Dev nD × Fin 15 => payToks p.1 p.2 :=
    (bigSep_univ_prod (fun p : Dev nD × Fin 15 => (payToks p.1 p.2 : sProp 𝕄))).symm
  have eB : (bigSep Finset.univ fun p : Dev nD × Fin 15 => (dutyTok ER (barCell p.1) 0 (sIx p.2) : sProp 𝕄))
      = bigSep Finset.univ fun p : Dev nD × Fin 15 => dutyTok ER (barCell (fwd (1 + p.2.val) p.1)) 0 (sIx p.2) :=
    bigSep_univ_equiv shiftE _
  have eR : (bigSep Finset.univ fun p : Dev nD × Fin 15 => (dutyTok ER (rsRecvCell p.1 (fwd (1 + p.2.val) p.1)) 0 0 : sProp 𝕄))
      = bigSep Finset.univ fun p : Dev nD × Fin 15 => dutyTok ER (rsRecvCell (fwd (1 + p.2.val) p.1) p.1) 0 0 := by
    rw [bigSep_univ_equiv flipE]
    refine bigSep_congr fun p _ => ?_
    show (dutyTok ER (rsRecvCell (fwd (1 + p.2.val) p.1) (fwd (1 + (opp p.2).val) (fwd (1 + p.2.val) p.1))) 0 0 : sProp 𝕄) = _
    rw [fwd_opp_fwd]
  have eA : (bigSep Finset.univ fun p : Dev nD × Fin 15 => (dutyTok ER (agRecvCell p.1 (fwd (1 + p.2.val) p.1)) 0 0 : sProp 𝕄))
      = bigSep Finset.univ fun p : Dev nD × Fin 15 => dutyTok ER (agRecvCell (fwd (1 + p.2.val) p.1) p.1) 0 0 := by
    rw [bigSep_univ_equiv flipE]
    refine bigSep_congr fun p _ => ?_
    show (dutyTok ER (agRecvCell (fwd (1 + p.2.val) p.1) (fwd (1 + (opp p.2).val) (fwd (1 + p.2.val) p.1))) 0 0 : sProp 𝕄) = _
    rw [fwd_opp_fwd]
  rw [eO, eP]
  unfold ownToks payToks
  simp only [bigSep_sep']
  rw [eB, eR, eA]

instance recordsPersistent (K : Dev nD × Fin 65 → ℕ) : BI.Persistent (records m K) := by unfold records; infer_instance

def linear (c : Dev nD) : sProp 𝕄 := iprop(positions c ∗ bigSep Finset.univ fun r : Fin 15 => payToks c r)

theorem ghost_intro (K : Dev nD × Fin 65 → ℕ) (c : Dev nD) : iprop(records m K ∗ linear c) ⊢ G' m c := by
  unfold linear G' ghost
  iintro ⟨#HR, Hp, Ht⟩
  iexists K
  isplitr; · iexact HR
  isplitl [Hp]; · iexact Hp
  iexact Ht

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 65 => iprop(atPos ER (kcell (c, k)) 0 ∅ 0 ∗ reached ER (kcell (c, k)) 0))
          ∗ bigSep Finset.univ fun r : Fin 15 => ownToks c r) : sProp 𝕄)
      ⊢ bigSep Finset.univ (G' m) := by
  rw [bigSep_sep', bigSep_sep', ← bigSep_univ_prod (fun ck : Dev nD × Fin 65 => iprop(∃ κ : ℕ, cellInv ER (sched m) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => (positions c : sProp 𝕄)) (fun c => bigSep Finset.univ fun r : Fin 15 => payToks c r)).symm).trans
      (bigSep_mono fun c _ => show _ ⊢ linear c from .refl))
    isplitl [Hat]; · iexact Hat
    iexact Htk

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  rw [unscopedSems0_eq, bigSep_fin65]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 65 => iprop(atPos ER (kcell (c, k)) 0 ∅ 0 ∗ reached ER (kcell (c, k)) 0))
          ∗ bigSep Finset.univ fun r : Fin 15 => ownToks c r) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Dist

end
-- ==== Proof.FinalOut.lean ====
import proofs.«900887_g7700000000000888_dist_matmul_k_i_m512_n512_k256_v7x_i16_bf16_1_alg».proof.Proof.Inv
import proofs.«900887_g7700000000000888_dist_matmul_k_i_m512_n512_k256_v7x_i16_bf16_1_alg».proof.Proof.Gen.KernelIdeal.Points
import Idealize.ShloMosaic.Lib.Pipeline.Cells
import Idealize.ShloMosaic.Signature.Memref

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem outBlk_origin : (fun a => win0_2.index t0_0 a * main_v1.ty.shape.size a) = fun _ => 0 :=
  funext fun a => Nat.zero_mul _

theorem finalOut (c : Dev nD) :
    (dats m ρ 0 c).arrAt (2 : Fin 3) cfg0.N = (res m : Vec F S512x512 .bf16) := by
  have hN : cfg0.N = (t0_0 : Fin cfg0.N).val + 1 := N_0
  rw [hN, (dats m ρ 0 c).arrAt_succ (2 : Fin 3) t0_0, if_pos (flush0_2 t0_0)]
  exact Memref.write_access_unit_zero_univ (Elt F) main_v1 outBlk_origin
    (fun a => by rw [congrFun outBlk_origin a]; exact Nat.le_of_eq (Nat.zero_add _)) _ (res m)

theorem finalIn0 (c : Dev nD) :
    (dats m ρ 0 c).arrAt (0 : Fin 3) cfg0.N = m ((c : Thread nD τ).loc main_arg0) :=
  (dats m ρ 0 c).arrAt_in (0 : Fin 3) rfl cfg0.N

theorem finalIn1 (c : Dev nD) :
    (dats m ρ 0 c).arrAt (1 : Fin 3) cfg0.N = m ((c : Thread nD τ).loc main_arg1) :=
  (dats m ρ 0 c).arrAt_in (1 : Fin 3) rfl cfg0.N

end Cert.KernelIdeal.Dist

end
-- ==== Proof.PostGen.lean ====
import proofs.«900887_g7700000000000888_dist_matmul_k_i_m512_n512_k256_v7x_i16_bf16_1_alg».proof.Proof.Inv
import proofs.«900887_g7700000000000888_dist_matmul_k_i_m512_n512_k256_v7x_i16_bf16_1_alg».proof.Proof.FinalOut

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

def finalA (c : Dev nD) (w : Fin cfg0.W) : Buf (Elt F) ((cfg0.win w).arr.view.loc (c : Thread nD τ)) := (dats m ρ 0 c).arrAt w cfg0.N

def QC : PUnit.{1} × MemSt nD τ sig (Elt F) → Prop := fun r =>
  ∀ c : Dev nD, ∀ w : Fin cfg0.W, r.2.mem ((cfg0.win w).arr.view.loc (c : Thread nD τ)) = finalA m ρ c w

theorem frame_of_run (h : θ_run defs (onTc (τ := τ) (main (F := F))) (s₀ m ρ) (QC m ρ)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ hr c => ⟨(hr c (0 : Fin 3)).trans (finalIn0 m ρ c), (hr c (1 : Fin 3)).trans (finalIn1 m ρ c)⟩) h

end Cert.KernelIdeal.Dist

end
-- ==== Proof.Launch.lean ====
import proofs.«900887_g7700000000000888_dist_matmul_k_i_m512_n512_k256_v7x_i16_bf16_1_alg».proof.Proof.Body
import proofs.«900887_g7700000000000888_dist_matmul_k_i_m512_n512_k256_v7x_i16_bf16_1_alg».proof.Proof.LaunchGhost
import proofs.«900887_g7700000000000888_dist_matmul_k_i_m512_n512_k256_v7x_i16_bf16_1_alg».proof.Proof.LaunchCred
import proofs.«900887_g7700000000000888_dist_matmul_k_i_m512_n512_k256_v7x_i16_bf16_1_alg».proof.Proof.PostGen

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch Pipeline.ownSems0
  iintro ⟨Hr, Hz⟩
  isplitr; · iempintro
  isplitl [Hz]; · iexact Hz
  iexact Hr

set_option maxRecDepth 16384 in
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := fun g h => if_neg h) (hwaits := waits m ρ)
    (G := G m) (G' := G' m) (u₀ := u₀)
    (hu₀ := hu₀_proto m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.Dist

end
-- ==== Proof.RefSide.lean ====
import proofs.«900887_g7700000000000888_dist_matmul_k_i_m512_n512_k256_v7x_i16_bf16_1_alg».proof.Proof.Gen.ReferenceIdeal.Run
import proofs.«900887_g7700000000000888_dist_matmul_k_i_m512_n512_k256_v7x_i16_bf16_1_alg».proof.Proof.Gen.ReferenceIdeal.Read
-- ==== Proof.ValueIdeal.lean ====
import proofs.«900887_g7700000000000888_dist_matmul_k_i_m512_n512_k256_v7x_i16_bf16_1_alg».proof.Proof.Contents
import proofs.«900887_g7700000000000888_dist_matmul_k_i_m512_n512_k256_v7x_i16_bf16_1_alg».proof.Proof.RefSide
import Idealize.ShloMosaic.PureOps.Ideal.Laws
import Idealize.ShloMosaic.Lib.ValueIdx
import Idealize.ShloMosaic.Lib.Layout
import Idealize.ShloMosaic.Lib.Pipeline.Value
import Mathlib.Algebra.BigOperators.Fin
import Mathlib.Algebra.BigOperators.Group.Finset.Basic
import Mathlib.Data.Fintype.BigOperators

noncomputable section

namespace Cert.KernelIdeal.Dist

open Cert.KernelIdeal Cert.KernelIdeal.Gen
open Idealize.ShloMosaic Idealize.ShloMosaic.TcCoe Idealize.SL.Sem

section Sums

variable {M : Type} [AddCommMonoid M]

def blockEquiv : Dev nD × Fin 256 ≃ Fin 4096 where
  toFun p := ⟨p.1.val * 256 + p.2.val, by
    have h1 : p.1.val < 16 := p.1.isLt
    have h2 := p.2.isLt
    omega⟩
  invFun K := (⟨K.val / 256, by have := K.isLt; show K.val / 256 < 16; omega⟩, ⟨K.val % 256, Nat.mod_lt _ (by decide)⟩)
  left_inv p := by
    obtain ⟨s, k⟩ := p
    have hk := k.isLt
    refine Prod.ext (Fin.ext ?_) (Fin.ext ?_)
    · show (s.val * 256 + k.val) / 256 = s.val
      omega
    · show (s.val * 256 + k.val) % 256 = k.val
      omega
  right_inv K := Fin.ext (by
    show K.val / 256 * 256 + K.val % 256 = K.val
    omega)

theorem sum_blocks (f : Fin 4096 → M) :
    ∑ s : Dev nD, ∑ k : Fin 256, f (blockEquiv (s, k)) = ∑ K : Fin 4096, f K := by
  rw [← Fintype.sum_prod_type' (fun (s : Dev nD) (k : Fin 256) => f (blockEquiv (s, k)))]
  exact Equiv.sum_comp blockEquiv f

theorem fwd_zero (c : Dev nD) : fwd 0 c = c := by
  have hc : c.val < 16 := c.isLt
  apply Fin.ext
  simp only [fwd_val]
  omega

def ringEquiv (c : Dev nD) : Fin 16 ≃ Dev nD where
  toFun t := fwd t.val c
  invFun s := ⟨(s.val + 16 - c.val) % 16, Nat.mod_lt _ (by decide)⟩
  left_inv t := Fin.ext (by
    have hc : c.val < 16 := c.isLt
    have ht := t.isLt
    show ((c.val + t.val) % 16 + 16 - c.val) % 16 = t.val
    omega)
  right_inv s := Fin.ext (by
    have hc : c.val < 16 := c.isLt
    have hs : s.val < 16 := s.isLt
    show (c.val + (s.val + 16 - c.val) % 16) % 16 = s.val
    omega)

def ringAcc (g : Dev nD → M) (c : Dev nD) : ℕ → M
  | 0 => g c
  | j + 1 => ringAcc g c j + g (fwd (j + 1) c)

theorem ringAcc_eq_range (g : Dev nD → M) (c : Dev nD) (j : ℕ) :
    ringAcc g c j = ∑ t ∈ Finset.range (j + 1), g (fwd t c) := by
  induction j with
  | zero =>
    show g c = ∑ t ∈ Finset.range 1, g (fwd t c)
    rw [Finset.sum_range_one, fwd_zero]
  | succ j ih =>
    rw [Finset.sum_range_succ, ← ih]
    rfl

/- Walking the ring from `c` meets every device once, so the running sum ends at the sum over all devices. -/
theorem ringAcc_all (g : Dev nD → M) (c : Dev nD) : ringAcc g c 15 = ∑ s : Dev nD, g s := by
  rw [ringAcc_eq_range]
  show ∑ t ∈ Finset.range 16, g (fwd t c) = _
  rw [Finset.sum_range]
  exact Equiv.sum_comp (ringEquiv c) g

end Sums

theorem pay1_lhs_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem pay1_lhs_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem pay1_rhs_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem pay1_rhs_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

theorem pay1_eq (a : Vec Ideal S512x256 .f32) (b : Vec Ideal S256x512 .f32) :
    k0_pay1 (F := Ideal) a b
      = fun x => FloatOps.matmul (F := Ideal) (φ₁ := .f32) (φ₂ := .f32) dot_S512x256_S256x512_S512x512_1_0_0_1_n_n none a b
          (constant (F := Ideal) S512x512 .f32 0x00000000#32) x := by
  show shapeCast S512x512 (truncf (F := Ideal) .bf16 (matmul (F := Ideal) (φ₁ := .f32) (φ₂ := .f32) dot_S512x256_S256x512_S512x512_1_0_0_1_n_n none
      (shapeCast S512x256 a shapeCasts_S512x256_S512x256) (shapeCast S256x512 b shapeCasts_S256x512_S256x512)
      (constant (F := Ideal) S512x512 .f32 0x00000000#32)) bitsLt_bf16_f32) shapeCasts_S512x512_S512x512 = _
  rw [shapeCast_self, shapeCast_self, shapeCast_self]
  rfl

theorem pay1_apply (a : Vec Ideal S512x256 .f32) (b : Vec Ideal S256x512 .f32) (x : S512x512.Idx) :
    (k0_pay1 (F := Ideal) a b x : EReal)
      = ∑ k : Fin 256, (a (ValueIdx.ix2 (x 0) k) : EReal) * (b (ValueIdx.ix2 k (x 1)) : EReal) := by
  rw [pay1_eq]
  show FloatOps.matmul (F := Ideal) (φ₁ := .f32) (φ₂ := .f32) dot_S512x256_S256x512_S512x512_1_0_0_1_n_n none a b
      (constant (F := Ideal) S512x512 .f32 0x00000000#32) x = _
  rw [Ideal.matmul_constant_zero_apply, ← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx x ((ValueIdx.contrEquiv1 dot_S512x256_S256x512_S512x512_1_0_0_1_n_n 256 rfl rfl).symm k) = ValueIdx.ix2 (x 0) k := funext fun ax => Fin.ext (by
    match ax with
    | ⟨0, _⟩ => exact pay1_lhs_0 _ _
    | ⟨1, _⟩ => exact (pay1_lhs_1 _ _).trans hk)
  have er : dot_S512x256_S256x512_S512x512_1_0_0_1_n_n.rhsIdx x ((ValueIdx.contrEquiv1 dot_S512x256_S256x512_S512x512_1_0_0_1_n_n 256 rfl rfl).symm k) = ValueIdx.ix2 k (x 1) := funext fun ax => Fin.ext (by
    match ax with
    | ⟨0, _⟩ => exact (pay1_rhs_0 _ _).trans hk
    | ⟨1, _⟩ => exact pay1_rhs_1 _ _)
  exact congrArg₂ (fun u v => (a u : EReal) * (b v : EReal)) el er

section Values

variable (m : (ℓ : Loc nD τ sig) → Buf (Elt Ideal) ℓ)

theorem part_apply (s : Dev nD) (x : S512x512.Idx) :
    (part (F := Ideal) m s x : EReal)
      = ∑ k : Fin 256, (aOf (F := Ideal) m s (ValueIdx.ix2 (x 0) k) : EReal) * (bOf (F := Ideal) m s (ValueIdx.ix2 k (x 1)) : EReal) :=
  pay1_apply _ _ x

theorem accN_apply (c : Dev nD) (j : ℕ) (i : S32x512.Idx) :
    (accN (F := Ideal) m c j i : EReal) = ringAcc (fun s => (rowsOf c (part (F := Ideal) m s) i : EReal)) c j := by
  induction j with
  | zero => rfl
  | succ j ih =>
    show (accN (F := Ideal) m c j i : EReal) + (rowsOf c (part (F := Ideal) m (fwd (j + 1) c)) i : EReal) = _
    rw [ih]
    rfl

theorem res_apply (x : S512x512.Idx) :
    (res (F := Ideal) m x : EReal) = ∑ s : Dev nD, (part (F := Ideal) m s x : EReal) := by
  show (accN (F := Ideal) m (blkOf (x 0)) 15 (ValueIdx.ix2 (inBlk (x 0)) (x 1)) : EReal) = _
  rw [accN_apply, ringAcc_all]
  refine Finset.sum_congr rfl fun s _ => ?_
  show (part (F := Ideal) m s (ValueIdx.ix2 (rowIx (blkOf (x 0)) (inBlk (x 0))) (x 1)) : EReal) = part (F := Ideal) m s x
  exact congrArg (part (F := Ideal) m s)
    ((congrArg (fun r : Fin 512 => ValueIdx.ix2 r (x 1 : Fin 512)) (rowIx_blk_in (x 0))).trans (ValueIdx.eq_ix2 x).symm)

theorem aOf_eq (s : Dev nD) : aOf (F := Ideal) m s = m ((s : Thread nD τ).loc main_arg0) :=
  Memref.read_access_unit_zero (Elt Ideal) main_arg0 (funext fun a => Nat.zero_mul _) _ _

theorem bOf_eq (s : Dev nD) : bOf (F := Ideal) m s = m ((s : Thread nD τ).loc main_arg1) :=
  Memref.read_access_unit_zero (Elt Ideal) main_arg1 (funext fun a => Nat.zero_mul _) _ _

end Values

theorem block_cols_apply {α : Type} (A : (⟨2, ![512, 4096]⟩ : Shape).Idx → α) (s : Dev nD) (i : Fin 512) (k : Fin 256) :
    (Layout.block ⟨2, ![512, 256]⟩ ⟨2, ![512, 4096]⟩ 1 16 s A) (ValueIdx.ix2 i k) = A (ValueIdx.ix2 i (blockEquiv (s, k))) := by
  rw [Layout.block_apply]
  congr 1
  funext ax
  match ax with
  | ⟨0, _⟩ => exact Fin.ext rfl
  | ⟨1, _⟩ => exact Fin.ext rfl

theorem block_rows_apply {α : Type} (B : (⟨2, ![4096, 512]⟩ : Shape).Idx → α) (s : Dev nD) (k : Fin 256) (j : Fin 512) :
    (Layout.block ⟨2, ![256, 512]⟩ ⟨2, ![4096, 512]⟩ 0 16 s B) (ValueIdx.ix2 k j) = B (ValueIdx.ix2 (blockEquiv (s, k)) j) := by
  rw [Layout.block_apply]
  congr 1
  funext ax
  match ax with
  | ⟨0, _⟩ => exact Fin.ext rfl
  | ⟨1, _⟩ => exact Fin.ext rfl

/- Entry by entry the sixteen 256-term partial sums make up the reference's one 4096-term sum: a reindexing of a finite sum. -/
theorem res_eq_reference (m : (ℓ : Loc nD τ sig) → Buf (Elt Ideal) ℓ)
    (A : (⟨Cert.ReferenceIdeal.S512x4096, .f32⟩ : BufTy).Contents (Elt Ideal))
    (B : (⟨Cert.ReferenceIdeal.S4096x512, .f32⟩ : BufTy).Contents (Elt Ideal))
    (hA : ∀ c : Dev nD, m ((c.tc : Thread nD τ).loc main_arg0) = Layout.block ⟨2, ![512, 256]⟩ ⟨2, ![512, 4096]⟩ 1 16 c A)
    (hB : ∀ c : Dev nD, m ((c.tc : Thread nD τ).loc main_arg1) = Layout.block ⟨2, ![256, 512]⟩ ⟨2, ![4096, 512]⟩ 0 16 c B) :
    res (F := Ideal) m
      = truncf (F := Ideal) .bf16 (Host.dotGeneral (F := Ideal) (φ₁ := .f32) (φ₂ := .f32) Cert.ReferenceIdeal.dot_S512x4096_S4096x512_S512x512_1_0_0_1_n_n none A B) Cert.ReferenceIdeal.Gen.bitsLt_bf16_f32 := by
  funext x

  have hR : (truncf (F := Ideal) .bf16 (Host.dotGeneral (F := Ideal) (φ₁ := .f32) (φ₂ := .f32) Cert.ReferenceIdeal.dot_S512x4096_S4096x512_S512x512_1_0_0_1_n_n none A B) Cert.ReferenceIdeal.Gen.bitsLt_bf16_f32 x : EReal)
      = ∑ K : Fin 4096, (A (ValueIdx.ix2 (x 0) K) : EReal) * (B (ValueIdx.ix2 K (x 1)) : EReal) := by
    show (Cert.ReferenceIdeal.Read.val_main_v0 (F := Ideal) A B x : EReal) = _
    rw [Cert.ReferenceIdeal.Read.val_main_v0_apply]
    refine Finset.sum_congr rfl fun K _ => ?_
    have e1 : Cert.ReferenceIdeal.Read.lidx_main_v0 x K = ValueIdx.ix2 (x 0) K := funext fun ax => by
      match ax with
      | ⟨0, _⟩ => rfl
      | ⟨1, _⟩ => rfl
    have e2 : Cert.ReferenceIdeal.Read.ridx_main_v0 x K = ValueIdx.ix2 K (x 1) := funext fun ax => by
      match ax with
      | ⟨0, _⟩ => rfl
      | ⟨1, _⟩ => rfl
    exact congrArg₂ (fun u v => (A u : EReal) * (B v : EReal)) e1 e2

  have hK : ∀ (s : Dev nD) (k : Fin 256),
      (aOf (F := Ideal) m s (ValueIdx.ix2 (x 0) k) : EReal) * (bOf (F := Ideal) m s (ValueIdx.ix2 k (x 1)) : EReal)
        = (A (ValueIdx.ix2 (x 0) (blockEquiv (s, k))) : EReal) * (B (ValueIdx.ix2 (blockEquiv (s, k)) (x 1)) : EReal) := by
    intro s k
    have ha : (aOf (F := Ideal) m s (ValueIdx.ix2 (x 0) k) : EReal) = A (ValueIdx.ix2 (x 0) (blockEquiv (s, k))) :=
      (congrFun ((aOf_eq m s).trans (hA s)) (ValueIdx.ix2 (x 0) k)).trans (block_cols_apply A s (x 0) k)
    have hb : (bOf (F := Ideal) m s (ValueIdx.ix2 k (x 1)) : EReal) = B (ValueIdx.ix2 (blockEquiv (s, k)) (x 1)) :=
      (congrFun ((bOf_eq m s).trans (hB s)) (ValueIdx.ix2 k (x 1))).trans (block_rows_apply B s k (x 1))
    exact congrArg₂ (fun u v : EReal => u * v) ha hb
  calc (res (F := Ideal) m x : EReal)
      = ∑ s : Dev nD, (part (F := Ideal) m s x : EReal) := res_apply m x
    _ = ∑ s : Dev nD, ∑ k : Fin 256,
          (A (ValueIdx.ix2 (x 0) (blockEquiv (s, k))) : EReal) * (B (ValueIdx.ix2 (blockEquiv (s, k)) (x 1)) : EReal) :=
        Finset.sum_congr rfl fun s _ => (part_apply m s x).trans (Finset.sum_congr rfl fun k _ => hK s k)
    _ = ∑ K : Fin 4096, (A (ValueIdx.ix2 (x 0) K) : EReal) * (B (ValueIdx.ix2 K (x 1)) : EReal) :=
        sum_blocks (fun K => (A (ValueIdx.ix2 (x 0) K) : EReal) * (B (ValueIdx.ix2 K (x 1)) : EReal))
    _ = _ := hR.symm

end Cert.KernelIdeal.Dist

end
-- ==== Proof.Post.lean ====
import proofs.«900887_g7700000000000888_dist_matmul_k_i_m512_n512_k256_v7x_i16_bf16_1_alg».proof.Defs
import proofs.«900887_g7700000000000888_dist_matmul_k_i_m512_n512_k256_v7x_i16_bf16_1_alg».proof.Proof.PostGen
import proofs.«900887_g7700000000000888_dist_matmul_k_i_m512_n512_k256_v7x_i16_bf16_1_alg».proof.Proof.ValueIdeal
import proofs.«900887_g7700000000000888_dist_matmul_k_i_m512_n512_k256_v7x_i16_bf16_1_alg».proof.Proof.RefSide
import proofs.«900887_g7700000000000888_dist_matmul_k_i_m512_n512_k256_v7x_i16_bf16_1_alg».proof.Proof.Gen.Pre_finite_inputs_Kernel
import proofs.«900887_g7700000000000888_dist_matmul_k_i_m512_n512_k256_v7x_i16_bf16_1_alg».proof.Proof.Gen.Pre_finite_inputs_ReferenceIdeal

noncomputable section

namespace Cert.KernelIdeal.Dist

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem frame_ReferenceIdeal_proof : Cert.frame_ReferenceIdeal :=
  fun m' g' _ => (θ_run Cert.ReferenceIdeal.defs _ _).mono (fun _ h c => (h c).2)
    (Cert.ReferenceIdeal.Value.run (F := Ideal) m' g')

theorem algebraic_of_run
    (hrun : ∀ (m : (ℓ : Loc nD τ sig) → Buf (Elt Ideal) ℓ) (ρ : Dev nD → PrngReg),
      θ_run (defs (F := Ideal)) (onTc (τ := τ) (main (F := Ideal))) (s₀ m ρ) (QC m ρ)) :
    Cert.algebraic_KernelIdeal_ReferenceIdeal := by
  intro m g m' g' _ hagree
  have hres := res_eq_reference m
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (fun c => (hagree c).1) (fun c => (hagree c).2)
  refine ⟨truncf (F := Ideal) .bf16 (Host.dotGeneral (F := Ideal) (φ₁ := .f32) (φ₂ := .f32)
      Cert.ReferenceIdeal.dot_S512x4096_S4096x512_S512x512_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)))
      Cert.ReferenceIdeal.Gen.bitsLt_bf16_f32, ?_, ?_⟩
  · exact (θ_run (defs (F := Ideal)) _ _).mono
      (fun _ hr c => ⟨((hr c (2 : Fin 3)).trans (finalOut m g c)).trans hres,
        (hr c (0 : Fin 3)).trans (finalIn0 m g c), (hr c (1 : Fin 3)).trans (finalIn1 m g c)⟩) (hrun m g)
  · exact (θ_run (Cert.ReferenceIdeal.defs (F := Ideal)) _ _).mono (fun _ h => h 0)
      (Cert.ReferenceIdeal.Value.run (F := Ideal) m' g')

end Cert.KernelIdeal.Dist

end
-- ==== Proof.lean ====
/- The ideal pass rewrote nothing, so the word-level program and its idealization are one text: the run of the mesh,
   proved once for any float instance, gives both frames.  Over the extended reals the sixteen partial products add up
   to the reference's one product of the whole arrays. -/
import proofs.«900887_g7700000000000888_dist_matmul_k_i_m512_n512_k256_v7x_i16_bf16_1_alg».proof.Defs
import proofs.«900887_g7700000000000888_dist_matmul_k_i_m512_n512_k256_v7x_i16_bf16_1_alg».proof.Proof.Launch
import proofs.«900887_g7700000000000888_dist_matmul_k_i_m512_n512_k256_v7x_i16_bf16_1_alg».proof.Proof.Post
import proofs.«900887_g7700000000000888_dist_matmul_k_i_m512_n512_k256_v7x_i16_bf16_1_alg».proof.Proof.Gen.Kernel
import Idealize.ShloMosaic.Adequacy
import Idealize.ShloMosaic.Init

noncomputable section

namespace Cert.Proof

open Idealize.ShloMosaic Idealize.SL.Sem

variable {F : FTy → Type} [FloatOps F]

/- Label by label, the two programs' kernel tables hold the same function. -/
set_option maxRecDepth 16384 in
theorem defs₀_eq : Cert.Kernel.defs₀ (F := F) = Cert.KernelIdeal.defs₀ (F := F) :=
  congrArg Defs.onTc (funext fun ℓ => funext fun a => by
    match ℓ, a with
    | 0, (t, s) => rfl
    | ⟨_ + 1, h⟩, _ => exact absurd h (Nat.not_lt.2 (Nat.le_add_left _ _)))

theorem defs_eq : Cert.Kernel.defs (F := F) = Cert.KernelIdeal.defs (F := F) :=
  congrArg (Pipeline.defs Cert.KernelIdeal.pcfgs) defs₀_eq

theorem frame_kernelIdeal : Cert.frame_KernelIdeal := fun m g _ =>
  Cert.KernelIdeal.Dist.frame_of_run m g (Cert.KernelIdeal.Dist.run_main (F := Ideal) m g)

/- The same run at the word-level instance, carried over the equality of the two tables. -/
theorem frame_kernel : Cert.frame_Kernel := fun m g _ =>
  defs_eq (F := Bits) ▸ Cert.KernelIdeal.Dist.frame_of_run m g (Cert.KernelIdeal.Dist.run_main (F := Bits) m g)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, Cert.KernelIdeal.Dist.frame_ReferenceIdeal_proof, trivial,
  Cert.KernelIdeal.Dist.algebraic_of_run (fun m ρ => Cert.KernelIdeal.Dist.run_main (F := Ideal) m ρ)⟩

end Cert.Proof

end
